-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128x1000 : S_.BroadcastsInDim S128x1000 (![] : Fin 0 → Fin S128x1000.rank)
  reducesTo_S128x1000_S_d0_1 : S128x1000.ReducesTo [0, 1] S_

variable [Facts]

def fn_part2 {F : FTy → Type} [FloatOps F] (main_arg7 : FVec F S4096x128 .f32) (main_arg8 : FVec F S128x1000 .f32) (main_v33 : IVec S_ 1) : IVec S_ 1 :=
  let main_v34 : FVec F S4096x128 .f32 := Host.absf main_arg7
  let main_cst_12 : FVec F S_ .f32 := constant S_ .f32 0x7F800000#32
  let main_v35 : FVec F S4096x128 .f32 := broadcastInDim S4096x128 ![] bcast_S_S4096x128 main_cst_12
  let main_v36 : IVec S4096x128 1 := cmpf .olt main_v34 main_v35
  let main_c_13 : IVec S_ 1 := constantI S_ 1 1#1
  let main_v37 : IVec S_ 1 := (fun x v => Host.reduce IntOp.andi x v reducesTo_S4096x128_S_d0_1 h_S_) main_v36 main_c_13
  let main_v38 : IVec S_ 1 := andi main_v33 main_v37
  let main_v39 : FVec F S128x1000 .f32 := Host.absf main_arg8
  let main_cst_14 : FVec F S_ .f32 := constant S_ .f32 0x7F800000#32
  let main_v40 : FVec F S128x1000 .f32 := broadcastInDim S128x1000 ![] bcast_S_S128x1000 main_cst_14
  let main_v41 : IVec S128x1000 1 := cmpf .olt main_v39 main_v40
  let main_c_15 : IVec S_ 1 := constantI S_ 1 1#1
  let main_v42 : IVec S_ 1 := (fun x v => Host.reduce IntOp.andi x v reducesTo_S128x1000_S_d0_1 h_S_) main_v41 main_c_15
  let main_v43 : IVec S_ 1 := andi main_v38 main_v42
  main_v43

def fn_part1 {F : FTy → Type} [FloatOps F] (main_arg4 : FVec F S128x4096 .f32) (main_arg5 : FVec F S4096x128 .f32) (main_arg6 : FVec F S128x4096 .f32) (main_arg7 : FVec F S4096x128 .f32) (main_arg8 : FVec F S128x1000 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S128x4096 .f32 := Host.absf main_arg6
  let main_cst_10 : FVec F S_ .f32 := constant S_ .f32 0x7F800000#32
  let main_v30 : FVec F S128x4096 .f32 := broadcastInDim S128x4096 ![] bcast_S_S128x4096 main_cst_10
  let main_v31 : IVec S128x4096 1 := cmpf .olt main_v29 main_v30
  let main_c_11 : IVec S_ 1 := constantI S_ 1 1#1
  let main_v32 : IVec S_ 1 := (fun x v => Host.reduce IntOp.andi x v reducesTo_S128x4096_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024x128 .f32) (main_arg2 : FVec F S128x4096 .f32) (main_arg3 : FVec F S4096x128 .f32) (main_arg4 : FVec F S128x4096 .f32) (main_arg5 : FVec F S4096x128 .f32) (main_arg6 : FVec F S128x4096 .f32) (main_arg7 : FVec F S4096x128 .f32) (main_arg8 : FVec F S128x1000 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S1024x4096 : Shape := ⟨2, ![1024, 4096]⟩
abbrev S128x1024 : Shape := ⟨2, ![128, 1024]⟩
abbrev S1024x1024 : Shape := ⟨2, ![1024, 1024]⟩
abbrev S4096x4096 : Shape := ⟨2, ![4096, 4096]⟩
abbrev S4096x1000 : Shape := ⟨2, ![4096, 1000]⟩
abbrev S1024x1000 : Shape := ⟨2, ![1024, 1000]⟩
abbrev S8192x4096 : Shape := ⟨2, ![8192, 4096]⟩
abbrev S8192x1000 : Shape := ⟨2, ![8192, 1000]⟩
abbrev S1024 : Shape := ⟨1, ![1024]⟩
abbrev S1024x1 : Shape := ⟨2, ![1024, 1]⟩

abbrev nBuf : Space → Nat
  | .hbm => 18
  | .vmem => 54
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S128x4096, .f32⟩
  | .hbm, ⟨3, _⟩ => ⟨S4096x128, .f32⟩
  | .hbm, ⟨4, _⟩ => ⟨S128x4096, .f32⟩
  | .hbm, ⟨5, _⟩ => ⟨S4096x128, .f32⟩
  | .hbm, ⟨6, _⟩ => ⟨S128x4096, .f32⟩
  | .hbm, ⟨7, _⟩ => ⟨S4096x128, .f32⟩
  | .hbm, ⟨8, _⟩ => ⟨S128x1000, .f32⟩
  | .hbm, ⟨9, _⟩ => ⟨S1024x4096, .bf16⟩
  | .hbm, ⟨10, _⟩ => ⟨S4096x4096, .bf16⟩
  | .hbm, ⟨11, _⟩ => ⟨S4096x4096, .bf16⟩
  | .hbm, ⟨12, _⟩ => ⟨S4096x1000, .bf16⟩
  | .hbm, ⟨13, _⟩ => ⟨S8192x4096, .bf16⟩
  | .hbm, ⟨14, _⟩ => ⟨S8192x4096, .bf16⟩
  | .hbm, ⟨15, _⟩ => ⟨S8192x4096, .bf16⟩
  | .hbm, ⟨16, _⟩ => ⟨S8192x1000, .f32⟩
  | .hbm, ⟨17, _⟩ => ⟨S8192x1000, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S128x1024, .f32⟩
  | .local _ .vmem, ⟨8, _⟩ => ⟨S128x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S128x1024, .f32⟩
  | .local _ .vmem, ⟨14, _⟩ => ⟨S128x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x128, .f32⟩
  | .local _ .vmem, ⟨18, _⟩ => ⟨S1024x128, .f32⟩
  | .local _ .vmem, ⟨19, _⟩ => ⟨S128x1000, .f32⟩
  | .local _ .vmem, ⟨20, _⟩ => ⟨S1024x1000, .bf16⟩
  | .local _ .vmem, ⟨21, _⟩ => ⟨S1024x1000, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .f32⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .f32⟩
  | .local _ .vmem, ⟨43, _⟩ => ⟨S1024x1024, .bf16⟩
  | .local _ .vmem, ⟨44, _⟩ => ⟨S1024x1024, .bf16⟩
  | .local _ .vmem, ⟨45, _⟩ => ⟨S1024x1000, .bf16⟩
  | .local _ .vmem, ⟨46, _⟩ => ⟨S1024x1000, .bf16⟩
  | .local _ .vmem, ⟨47, _⟩ => ⟨S1024x1000, .f32⟩
  | .local _ .vmem, ⟨48, _⟩ => ⟨S1024x1000, .f32⟩
  | .local _ .vmem, ⟨49, _⟩ => ⟨S1024x1000, .f32⟩
  | .local _ .vmem, ⟨50, _⟩ => ⟨S1024x1000, .f32⟩
  | .local _ .vmem, ⟨51, _⟩ => ⟨S1024x1000, .f32⟩
  | .local _ .vmem, ⟨52, _⟩ => ⟨S1024x1000, .f32⟩
  | .local _ .vmem, ⟨53, _⟩ => ⟨S1024x1000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_scratch0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S128x1000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1000 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![8, 4, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 4, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 4, 4], ![false, false, false]⟩

def k6_cond2 (i : grid6.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1000 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1000 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1000 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1024x1000 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S128x1000_S128x1000_0_0 : ∀ a, (![0, 0] : Fin 2 → Nat) a + S128x1000.size a ≤ S128x1000.size a
  h_S128x1000 : 0 < S128x1000.numel
  inb_S1024x1000_S1024x1000_0_0 : ∀ a, (![0, 0] : Fin 2 → Nat) a + S1024x1000.size a ≤ S1024x1000.size a
  h_S1024x1000 : 0 < S1024x1000.numel
  packedbf16_S1024x1000_S1024x1000_0_0 : (Rect.unit (s := S1024x1000) ![0, 0] S1024x1000.size inb_S1024x1000_S1024x1000_0_0).PackedRows (EltTy.packing .bf16)
  shapeCasts_S1024x1024_S1024x1024 : S1024x1024.ShapeCasts S1024x1024
  shapeCasts_S1024x1000_S1024x1000 : S1024x1000.ShapeCasts S1024x1000
  reduces_S1024x1000_S1024 : S1024x1000.Reduces [1] S1024
  shapeCasts_S1024_S1024x1 : S1024.ShapeCasts S1024x1
  broadcasts_S1024x1_S1024x1000 : S1024x1.Broadcasts S1024x1000
  dot_S1024x128_S128x1024_S1024x1024_1_0_0_1_n_n_wf : DotDims.WF S1024x128 S128x1024 S1024x1024 [1] [0] [0] [1] [] []
  dot_S1024x128_S128x1000_S1024x1000_1_0_0_1_n_n_wf : DotDims.WF S1024x128 S128x1000 S1024x1000 [1] [0] [0] [1] [] []
  dot_S1024x1024_S1024x1024_S1024x1024_1_0_0_1_n_n_wf : DotDims.WF S1024x1024 S1024x1024 S1024x1024 [1] [0] [0] [1] [] []
  dot_S1024x1024_S1024x1000_S1024x1000_1_0_0_1_n_n_wf : DotDims.WF S1024x1024 S1024x1000 S1024x1000 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .f32 = 32 ∨ (Rect.block (s := S128x4096) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .bf16 = 32 ∨ (Rect.block (s := S1024x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x4096.size a
  hwx1_1 : ∀ i : grid1.Coords, EltTy.bits .f32 = 32 ∨ (Rect.block (s := S128x4096) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x4096.size a
  hwx2_1 : ∀ i : grid2.Coords, EltTy.bits .f32 = 32 ∨ (Rect.block (s := S128x4096) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S128x1000.size a ≤ S128x1000.size a
  hwx3_1 : ∀ i : grid3.Coords, EltTy.bits .f32 = 32 ∨ (Rect.block (s := S128x1000) S128x1000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1000.size a ≤ S4096x1000.size a
  hwx3_2 : ∀ i : grid3.Coords, EltTy.bits .bf16 = 32 ∨ (Rect.block (s := S4096x1000) S1024x1000.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .f32 = 32 ∨ (Rect.block (s := S8192x1024) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x4096.size a
  hwx4_1 : ∀ i : grid4.Coords, EltTy.bits .bf16 = 32 ∨ (Rect.block (s := S1024x4096) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x4096.size a
  hwx4_2 : ∀ i : grid4.Coords, EltTy.bits .bf16 = 32 ∨ (Rect.block (s := S8192x4096) S1024x1024.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x4096.size a
  hwx5_0 : ∀ i : grid5.Coords, EltTy.bits .bf16 = 32 ∨ (Rect.block (s := S8192x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x4096.size a
  hwx5_1 : ∀ i : grid5.Coords, EltTy.bits .bf16 = 32 ∨ (Rect.block (s := S4096x4096) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S8192x4096.size a
  hwx5_2 : ∀ i : grid5.Coords, EltTy.bits .bf16 = 32 ∨ (Rect.block (s := S8192x4096) S1024x1024.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x4096.size a
  hwx6_0 : ∀ i : grid6.Coords, EltTy.bits .bf16 = 32 ∨ (Rect.block (s := S8192x4096) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S4096x4096.size a
  hwx6_1 : ∀ i : grid6.Coords, EltTy.bits .bf16 = 32 ∨ (Rect.block (s := S4096x4096) S1024x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1024.size a ≤ S8192x4096.size a
  hwx6_2 : ∀ i : grid6.Coords, EltTy.bits .bf16 = 32 ∨ (Rect.block (s := S8192x4096) S1024x1024.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S8192x4096.size a
  hwx7_0 : ∀ i : grid7.Coords, EltTy.bits .bf16 = 32 ∨ (Rect.block (s := S8192x4096) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x1000.size a ≤ S4096x1000.size a
  hwx7_1 : ∀ i : grid7.Coords, EltTy.bits .bf16 = 32 ∨ (Rect.block (s := S4096x1000) S1024x1000.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1000.size a ≤ S8192x1000.size a
  hwx7_2 : ∀ i : grid7.Coords, EltTy.bits .f32 = 32 ∨ (Rect.block (s := S8192x1000) S1024x1000.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1000.size a ≤ S8192x1000.size a
  hwx8_0 : ∀ i : grid8.Coords, EltTy.bits .f32 = 32 ∨ (Rect.block (s := S8192x1000) S1024x1000.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x1000.size a ≤ S8192x1000.size a
  hwx8_1 : ∀ i : grid8.Coords, EltTy.bits .f32 = 32 ∨ (Rect.block (s := S8192x1000) S1024x1000.size (cc8_transform_1 i) (hinb8_1 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1000_S1024x1000_1_0_0_1_n_n : DotDims S1024x1024 S1024x1000 S1024x1000 where
  lhsContracting := [1]
  rhsContracting := [0]
  lhsNonContracting := [0]
  rhsNonContracting := [1]
  lhsBatch := []
  rhsBatch := []
  wf := dot_S1024x1024_S1024x1000_S1024x1000_1_0_0_1_n_n_wf

abbrev win0_0 : Pipeline.Window sig grid0 :=
  Pipeline.Window.ofSpec (Memref.whole main_arg1) S1024x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg7) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x1000.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x1000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v4) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v5) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S1024x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v6) S1024x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v6) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v3) S1024x1000.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S1024x1000.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v7) S1024x1000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v8) S1024x1000.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

class Facts : Prop extends Facts₀ where

variable [Facts]
-- ==== ReferenceIdeal.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S1024x4096 : Shape := ⟨2, ![1024, 4096]⟩
abbrev S8192x4096 : Shape := ⟨2, ![8192, 4096]⟩
abbrev S_ : Shape := ⟨0, ![]⟩
abbrev S4096x4096 : Shape := ⟨2, ![4096, 4096]⟩
abbrev S4096x1000 : Shape := ⟨2, ![4096, 1000]⟩
abbrev S8192x1000 : Shape := ⟨2, ![8192, 1000]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S128x4096, .f32⟩
  | .hbm, ⟨3, _⟩ => ⟨S4096x128, .f32⟩
  | .hbm, ⟨4, _⟩ => ⟨S128x4096, .f32⟩
  | .hbm, ⟨5, _⟩ => ⟨S4096x128, .f32⟩
  | .hbm, ⟨6, _⟩ => ⟨S128x4096, .f32⟩
  | .hbm, ⟨7, _⟩ => ⟨S4096x128, .f32⟩
  | .hbm, ⟨8, _⟩ => ⟨S128x1000, .f32⟩
  | .hbm, ⟨9, _⟩ => ⟨S1024x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S4096x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S4096x1000, .f32⟩
  | .hbm, ⟨25, _⟩ => ⟨S8192x1000, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x1000, .f32⟩
  | .hbm, ⟨33, _⟩ => ⟨S8192x1000, .f32⟩
  | .hbm, ⟨34, _⟩ => ⟨S8192x1000, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S8192x1000, .f32⟩
  | .hbm, ⟨40, _⟩ => ⟨S8192x1000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_cst : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call3_cst : Ref sig .tc := ⟨.hbm, 26, rfl⟩
abbrev main_call3_v0 : Ref sig .tc := ⟨.hbm, 27, rfl⟩
abbrev main_call3_cst_0 : Ref sig .tc := ⟨.hbm, 28, rfl⟩
abbrev main_call3_v1 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_call3_v5 : Ref sig .tc := ⟨.hbm, 33, rfl⟩
abbrev main_call3_v6 : Ref sig .tc := ⟨.hbm, 34, rfl⟩
abbrev main_call3_cst_1 : Ref sig .tc := ⟨.hbm, 35, rfl⟩
abbrev main_call3_v7 : Ref sig .tc := ⟨.hbm, 36, rfl⟩
abbrev main_call3_v8 : Ref sig .tc := ⟨.hbm, 37, rfl⟩
abbrev main_call3_v9 : Ref sig .tc := ⟨.hbm, 38, rfl⟩
abbrev main_call3_v10 : Ref sig .tc := ⟨.hbm, 39, rfl⟩
abbrev main_v11 : Ref sig .tc := ⟨.hbm, 40, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  dot_S1024x128_S128x4096_S1024x4096_1_0_0_1_n_n_wf : DotDims.WF S1024x128 S128x4096 S1024x4096 [1] [0] [0] [1] [] []
  dot_S8192x1024_S1024x4096_S8192x4096_1_0_0_1_n_n_wf : DotDims.WF S8192x1024 S1024x4096 S8192x4096 [1] [0] [0] [1] [] []
  dot_S4096x128_S128x4096_S4096x4096_1_0_0_1_n_n_wf : DotDims.WF S4096x128 S128x4096 S4096x4096 [1] [0] [0] [1] [] []
  dot_S8192x4096_S4096x4096_S8192x4096_1_0_0_1_n_n_wf : DotDims.WF S8192x4096 S4096x4096 S8192x4096 [1] [0] [0] [1] [] []
  dot_S4096x128_S128x1000_S4096x1000_1_0_0_1_n_n_wf : DotDims.WF S4096x128 S128x1000 S4096x1000 [1] [0] [0] [1] [] []
  dot_S8192x4096_S4096x1000_S8192x1000_1_0_0_1_n_n_wf : DotDims.WF S8192x4096 S4096x1000 S8192x1000 [1] [0] [0] [1] [] []

variable [Facts₀]

def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S4096x128_S128x1000_S4096x1000_1_0_0_1_n_n : DotDims S4096x128 S128x1000 S4096x1000 where
  lhsContracting := [1]
  rhsContracting := [0]
  lhsNonContracting := [0]
  rhsNonContracting := [1]
  lhsBatch := []
  rhsBatch := []
  wf := dot_S4096x128_S128x1000_S4096x1000_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.K.Reg1.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev wholeK1 : Rect S1024x128 := Rect.unit (s := S1024x128) ![0, 0] S1024x128.size inb_S1024x128_S1024x128_0_0
abbrev wholeVt1 : Rect S128x1024 := Rect.unit (s := S128x1024) ![0, 0] S128x1024.size inb_S128x1024_S128x1024_0_0
abbrev wholeW1 : Rect S1024x1024 := Rect.unit (s := S1024x1024) ![0, 0] S1024x1024.size inb_S1024x1024_S1024x1024_0_0

def product1 (kb : Vec F S1024x128 .f32) (vtb : Vec F S128x1024 .f32) : Vec F S1024x1024 .bf16 :=
  View.canon [⟨wholeW1, k1_pay1 (View.ld kb wholeK1) (View.ld vtb wholeVt1)⟩]

theorem product1_covers (p : Vec F S1024x1024 .bf16) (y : S1024x1024.Idx) :
    ∃ pc ∈ ([⟨wholeW1, p⟩] : List (View.Piece (Elt F) S1024x1024 .bf16)), y ∈ pc.1.set :=
  View.cover_of_tiled [⟨wholeW1, p⟩] S1024x1024.size (by rfl) y

set_option maxHeartbeats 1000000 in
theorem form_w_triple1 (c : Dev nD) (E : Set ℕ) (i : grid1.Coords)
    (bufK : Memref sig .tc .vmem S1024x128 .f32) (hK : bufK.IsWhole)
    (bufVt : Memref sig .tc .vmem S128x1024 .f32) (hVt : bufVt.IsWhole)
    (bufW : Memref sig .tc .vmem S1024x1024 .bf16) (hW : bufW.IsWhole)
    (kb : Vec F S1024x128 .f32) (vtb : Vec F S128x1024 .f32) (K : PUnit → sProp 𝕄) :
    iprop(owns (c : Thread nD τ) bufK fullShare kb ∗ owns (c : Thread nD τ) bufVt fullShare vtb
        ∗ (∃ d, owns (c : Thread nD τ) bufW fullShare d)
        ∗ (iprop(owns (c : Thread nD τ) bufK fullShare kb ∗ owns (c : Thread nD τ) bufVt fullShare vtb
            ∗ owns (c : Thread nD τ) bufW fullShare (product1 kb vtb)) -∗ K ⟨⟩))
      ⊢ wp frame (wpE (defs₀ (F := F)) Variants.none c none) E (cc1__form_w_kernel i bufK hK bufVt hVt bufW hW) K := by
  simp only [cc1__form_w_kernel_eq_skeleton]; unfold cc1__form_w_kernel_skel
  unfold owns
  iintro ⟨⟨%fK, %hfK, HK⟩, ⟨%fVt, %hfVt, HVt⟩, ⟨%d, %fW, -, HW⟩, Hk⟩
  subst hfK; subst hfVt
  sl_exec
  sl_step
  iapply Hk
  isplitl [HK]
  · iexists fK; isplitr; · ipureintro; rfl
    iexact HK
  isplitl [HVt]
  · iexists fVt; isplitr; · ipureintro; rfl
    iexact HVt
  iexists _; isplitr
  swap; · iexact HW
  ipureintro
  exact View.read_writes_eq_canon _ _ _ (product1_covers _)

def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => product1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).q w = fullShare := by
  dsimp only [dat1]

theorem owed1 (c : Dev nD) (t : Fin (cfg1.N + 1)) : (dat1 V c).owed t = 0 := by
  dsimp only [dat1]

theorem after1_K (c : Dev nD) (t : Fin cfg1.N) : (dat1 V c).after 0 t = iblk1 V c 0 t := by dsimp only [dat1]
theorem after1_Vt (c : Dev nD) (t : Fin cfg1.N) : (dat1 V c).after 1 t = iblk1 V c 1 t := by dsimp only [dat1]
theorem after1_W (c : Dev nD) (t : Fin cfg1.N) :
    (dat1 V c).after 2 t = product1 (iblk1 V c 0 t) (iblk1 V c 1 t) := by dsimp only [dat1]

theorem before1_K (c : Dev nD) (t : Fin cfg1.N) (d) : (dat1 V c).before 0 t d = iblk1 V c 0 t :=
  ((dat1 V c).before_in_eq_fetched 0 rfl (fun _ => rfl) (fun _ _ _ => rfl)
      (fun t => by rw [after1_K]; unfold Dat.blockOf iblk1; rw [A_eq1]; try rfl) t d).trans
    (by unfold Dat.fetched Dat.blockOf iblk1; rw [A_eq1]; try rfl)

theorem before1_Vt (c : Dev nD) (t : Fin cfg1.N) (d) : (dat1 V c).before 1 t d = iblk1 V c 1 t :=
  ((dat1 V c).before_in_eq_fetched 1 rfl (fun _ => rfl) (fun _ _ _ => rfl)
      (fun t => by rw [after1_Vt]; unfold Dat.blockOf iblk1; rw [A_eq1]; try rfl) t d).trans
    (by unfold Dat.fetched Dat.blockOf iblk1; rw [A_eq1]; try rfl)

def bodyEntry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyExit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body_triple1 (c : Dev nD) (t : Fin cfg1.N) :
    bodyEntry1 V c t ⊢ wp frame (wpE (defs₀ (F := F)) Variants.none c none) Set.univ (bodyAt1 t) (fun _ => bodyExit1 V c t) := by
  unfold bodyEntry1 bodyExit1 bodyAt1
  simp only [before1_K, before1_Vt]
  rw [show (dat1 V c).Φ t.succ = (dat1 V c).Φ t.castSucc from rfl,
    show (dat1 V c).owesAt () t.succ = (dat1 V c).owesAt () t.castSucc from rfl,
    after1_K, after1_Vt, after1_W]
  iintro ⟨HΦ, Ho, ⟨%d0, HK⟩, ⟨%d1, HVt⟩, ⟨%d2, HW⟩⟩
  iapply (form_w_triple1 c Set.univ _ _ _ _ _ _ _ (iblk1 V c 0 t) (iblk1 V c 1 t) _)
  iframe HK HVt
  isplitl [HW]; · iexists _; iexact HW
  iintro ⟨HK, HVt, HW⟩
  iframe

theorem body_obligation1 (c : Dev nD) :
    BodyObligation (dat1 (F := F) V c) (defs₀ (F := F)) Variants.none () Set.univ := fun t => by
  rw [bigSep_W1, bigSep_W1]
  exact body_triple1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.Kernel.Hand

end
-- ==== Proof.K.Reg0.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import proofs.«134585_j83811991814293_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => product1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := by
  dsimp only [dat0]

theorem owed0 (c : Dev nD) (t : Fin (cfg0.N + 1)) : (dat0 V c).owed t = 0 := by
  dsimp only [dat0]

theorem after0_K (c : Dev nD) (t : Fin cfg0.N) : (dat0 V c).after 0 t = iblk0 V c 0 t := by dsimp only [dat0]
theorem after0_Vt (c : Dev nD) (t : Fin cfg0.N) : (dat0 V c).after 1 t = iblk0 V c 1 t := by dsimp only [dat0]
theorem after0_W (c : Dev nD) (t : Fin cfg0.N) :
    (dat0 V c).after 2 t = product1 (iblk0 V c 0 t) (iblk0 V c 1 t) := by dsimp only [dat0]

theorem before0_K (c : Dev nD) (t : Fin cfg0.N) (d) : (dat0 V c).before 0 t d = iblk0 V c 0 t :=
  ((dat0 V c).before_in_eq_fetched 0 rfl (fun _ => rfl) (fun _ _ _ => rfl)
      (fun t => by rw [after0_K]; unfold Dat.blockOf iblk0; rw [A_eq0]; try rfl) t d).trans
    (by unfold Dat.fetched Dat.blockOf iblk0; rw [A_eq0]; try rfl)

theorem before0_Vt (c : Dev nD) (t : Fin cfg0.N) (d) : (dat0 V c).before 1 t d = iblk0 V c 1 t :=
  ((dat0 V c).before_in_eq_fetched 1 rfl (fun _ => rfl) (fun _ _ _ => rfl)
      (fun t => by rw [after0_Vt]; unfold Dat.blockOf iblk0; rw [A_eq0]; try rfl) t d).trans
    (by unfold Dat.fetched Dat.blockOf iblk0; rw [A_eq0]; try rfl)

def bodyEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body is region 1's (it does not read the grid point), so region 1's run of it serves here. -/
theorem body_triple0 (c : Dev nD) (t : Fin cfg0.N) :
    bodyEntry0 V c t ⊢ wp frame (wpE (defs₀ (F := F)) Variants.none c none) Set.univ (bodyAt0 t) (fun _ => bodyExit0 V c t) := by
  unfold bodyEntry0 bodyExit0 bodyAt0
  rw [show cc0__form_w_kernel (F := F) (grid0.coords t) = cc1__form_w_kernel (F := F) (grid1.coords ⟨0, by decide⟩) from rfl]
  simp only [before0_K, before0_Vt]
  rw [show (dat0 V c).Φ t.succ = (dat0 V c).Φ t.castSucc from rfl,
    show (dat0 V c).owesAt () t.succ = (dat0 V c).owesAt () t.castSucc from rfl,
    after0_K, after0_Vt, after0_W]
  iintro ⟨HΦ, Ho, ⟨%d0, HK⟩, ⟨%d1, HVt⟩, ⟨%d2, HW⟩⟩
  iapply (form_w_triple1 c Set.univ _ _ _ _ _ _ _ (iblk0 V c 0 t) (iblk0 V c 1 t) _)
  iframe HK HVt
  isplitl [HW]; · iexists _; iexact HW
  iintro ⟨HK, HVt, HW⟩
  iframe

theorem body_obligation0 (c : Dev nD) :
    BodyObligation (dat0 (F := F) V c) (defs₀ (F := F)) Variants.none () Set.univ := fun t => by
  rw [bigSep_W0, bigSep_W0]
  exact body_triple0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.K.Reg2.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import proofs.«134585_j83811991814293_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => product1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := by
  dsimp only [dat2]

theorem owed2 (c : Dev nD) (t : Fin (cfg2.N + 1)) : (dat2 V c).owed t = 0 := by
  dsimp only [dat2]

theorem after2_K (c : Dev nD) (t : Fin cfg2.N) : (dat2 V c).after 0 t = iblk2 V c 0 t := by dsimp only [dat2]
theorem after2_Vt (c : Dev nD) (t : Fin cfg2.N) : (dat2 V c).after 1 t = iblk2 V c 1 t := by dsimp only [dat2]
theorem after2_W (c : Dev nD) (t : Fin cfg2.N) :
    (dat2 V c).after 2 t = product1 (iblk2 V c 0 t) (iblk2 V c 1 t) := by dsimp only [dat2]

theorem before2_K (c : Dev nD) (t : Fin cfg2.N) (d) : (dat2 V c).before 0 t d = iblk2 V c 0 t :=
  ((dat2 V c).before_in_eq_fetched 0 rfl (fun _ => rfl) (fun _ _ _ => rfl)
      (fun t => by rw [after2_K]; unfold Dat.blockOf iblk2; rw [A_eq2]; try rfl) t d).trans
    (by unfold Dat.fetched Dat.blockOf iblk2; rw [A_eq2]; try rfl)

theorem before2_Vt (c : Dev nD) (t : Fin cfg2.N) (d) : (dat2 V c).before 1 t d = iblk2 V c 1 t :=
  ((dat2 V c).before_in_eq_fetched 1 rfl (fun _ => rfl) (fun _ _ _ => rfl)
      (fun t => by rw [after2_Vt]; unfold Dat.blockOf iblk2; rw [A_eq2]; try rfl) t d).trans
    (by unfold Dat.fetched Dat.blockOf iblk2; rw [A_eq2]; try rfl)

def bodyEntry2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyExit2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body is region 1's (it does not read the grid point), so region 1's run of it serves here. -/
theorem body_triple2 (c : Dev nD) (t : Fin cfg2.N) :
    bodyEntry2 V c t ⊢ wp frame (wpE (defs₀ (F := F)) Variants.none c none) Set.univ (bodyAt2 t) (fun _ => bodyExit2 V c t) := by
  unfold bodyEntry2 bodyExit2 bodyAt2
  rw [show cc2__form_w_kernel (F := F) = cc1__form_w_kernel (F := F) from rfl]
  simp only [before2_K, before2_Vt]
  rw [show (dat2 V c).Φ t.succ = (dat2 V c).Φ t.castSucc from rfl,
    show (dat2 V c).owesAt () t.succ = (dat2 V c).owesAt () t.castSucc from rfl,
    after2_K, after2_Vt, after2_W]
  iintro ⟨HΦ, Ho, ⟨%d0, HK⟩, ⟨%d1, HVt⟩, ⟨%d2, HW⟩⟩
  iapply (form_w_triple1 c Set.univ _ _ _ _ _ _ _ (iblk2 V c 0 t) (iblk2 V c 1 t) _)
  iframe HK HVt
  isplitl [HW]; · iexists _; iexact HW
  iintro ⟨HK, HVt, HW⟩
  iframe

theorem body_obligation2 (c : Dev nD) :
    BodyObligation (dat2 (F := F) V c) (defs₀ (F := F)) Variants.none () Set.univ := fun t => by
  rw [bigSep_W2, bigSep_W2]
  exact body_triple2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.Hand

end
-- ==== Proof.K.Reg3.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev wholeK3 : Rect S1024x128 := Rect.unit (s := S1024x128) ![0, 0] S1024x128.size inb_S1024x128_S1024x128_0_0
abbrev wholeVt3 : Rect S128x1000 := Rect.unit (s := S128x1000) ![0, 0] S128x1000.size inb_S128x1000_S128x1000_0_0
abbrev wholeW3 : Rect S1024x1000 := Rect.unit (s := S1024x1000) ![0, 0] S1024x1000.size inb_S1024x1000_S1024x1000_0_0

def product3 (kb : Vec F S1024x128 .f32) (vtb : Vec F S128x1000 .f32) : Vec F S1024x1000 .bf16 :=
  View.canon [⟨wholeW3, k3_pay1 (View.ld kb wholeK3) (View.ld vtb wholeVt3)⟩]

theorem product3_covers (p : Vec F S1024x1000 .bf16) (y : S1024x1000.Idx) :
    ∃ pc ∈ ([⟨wholeW3, p⟩] : List (View.Piece (Elt F) S1024x1000 .bf16)), y ∈ pc.1.set :=
  View.cover_of_tiled [⟨wholeW3, p⟩] S1024x1000.size (by rfl) y

set_option maxHeartbeats 1000000 in
theorem form_w_triple3 (c : Dev nD) (E : Set ℕ) (i : grid3.Coords)
    (bufK : Memref sig .tc .vmem S1024x128 .f32) (hK : bufK.IsWhole)
    (bufVt : Memref sig .tc .vmem S128x1000 .f32) (hVt : bufVt.IsWhole)
    (bufW : Memref sig .tc .vmem S1024x1000 .bf16) (hW : bufW.IsWhole)
    (kb : Vec F S1024x128 .f32) (vtb : Vec F S128x1000 .f32) (K : PUnit → sProp 𝕄) :
    iprop(owns (c : Thread nD τ) bufK fullShare kb ∗ owns (c : Thread nD τ) bufVt fullShare vtb
        ∗ (∃ d, owns (c : Thread nD τ) bufW fullShare d)
        ∗ (iprop(owns (c : Thread nD τ) bufK fullShare kb ∗ owns (c : Thread nD τ) bufVt fullShare vtb
            ∗ owns (c : Thread nD τ) bufW fullShare (product3 kb vtb)) -∗ K ⟨⟩))
      ⊢ wp frame (wpE (defs₀ (F := F)) Variants.none c none) E (cc3__form_w_kernel i bufK hK bufVt hVt bufW hW) K := by
  simp only [cc3__form_w_kernel_eq_skeleton]; unfold cc3__form_w_kernel_skel
  unfold owns
  iintro ⟨⟨%fK, %hfK, HK⟩, ⟨%fVt, %hfVt, HVt⟩, ⟨%d, %fW, -, HW⟩, Hk⟩
  subst hfK; subst hfVt
  sl_exec
  sl_step
  iapply Hk
  isplitl [HK]
  · iexists fK; isplitr; · ipureintro; rfl
    iexact HK
  isplitl [HVt]
  · iexists fVt; isplitr; · ipureintro; rfl
    iexact HVt
  iexists _; isplitr
  swap; · iexact HW
  ipureintro
  exact View.read_writes_eq_canon _ _ _ (product3_covers _)

def dat3 (V : (c : Dev nD) → (b : Ref sig .tc) → Buf (Elt F) ((c : Thread nD τ).loc b)) (c : Dev nD) :
    Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => product3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem share3 (c : Dev nD) (w : Fin cfg3.W) : (dat3 V c).q w = fullShare := by
  dsimp only [dat3]

theorem owed3 (c : Dev nD) (t : Fin (cfg3.N + 1)) : (dat3 V c).owed t = 0 := by
  dsimp only [dat3]

theorem after3_K (c : Dev nD) (t : Fin cfg3.N) : (dat3 V c).after 0 t = iblk3 V c 0 t := by dsimp only [dat3]
theorem after3_Vt (c : Dev nD) (t : Fin cfg3.N) : (dat3 V c).after 1 t = iblk3 V c 1 t := by dsimp only [dat3]
theorem after3_W (c : Dev nD) (t : Fin cfg3.N) :
    (dat3 V c).after 2 t = product3 (iblk3 V c 0 t) (iblk3 V c 1 t) := by dsimp only [dat3]

theorem before3_K (c : Dev nD) (t : Fin cfg3.N) (d) : (dat3 V c).before 0 t d = iblk3 V c 0 t :=
  ((dat3 V c).before_in_eq_fetched 0 rfl (fun _ => rfl) (fun _ _ _ => rfl)
      (fun t => by rw [after3_K]; unfold Dat.blockOf iblk3; rw [A_eq3]; try rfl) t d).trans
    (by unfold Dat.fetched Dat.blockOf iblk3; rw [A_eq3]; try rfl)

theorem before3_Vt (c : Dev nD) (t : Fin cfg3.N) (d) : (dat3 V c).before 1 t d = iblk3 V c 1 t :=
  ((dat3 V c).before_in_eq_fetched 1 rfl (fun _ => rfl) (fun _ _ _ => rfl)
      (fun t => by rw [after3_Vt]; unfold Dat.blockOf iblk3; rw [A_eq3]; try rfl) t d).trans
    (by unfold Dat.fetched Dat.blockOf iblk3; rw [A_eq3]; try rfl)

def bodyEntry3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyExit3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body_triple3 (c : Dev nD) (t : Fin cfg3.N) :
    bodyEntry3 V c t ⊢ wp frame (wpE (defs₀ (F := F)) Variants.none c none) Set.univ (bodyAt3 t) (fun _ => bodyExit3 V c t) := by
  unfold bodyEntry3 bodyExit3 bodyAt3
  simp only [before3_K, before3_Vt]
  rw [show (dat3 V c).Φ t.succ = (dat3 V c).Φ t.castSucc from rfl,
    show (dat3 V c).owesAt () t.succ = (dat3 V c).owesAt () t.castSucc from rfl,
    after3_K, after3_Vt, after3_W]
  iintro ⟨HΦ, Ho, ⟨%d0, HK⟩, ⟨%d1, HVt⟩, ⟨%d2, HW⟩⟩
  iapply (form_w_triple3 c Set.univ _ _ _ _ _ _ _ (iblk3 V c 0 t) (iblk3 V c 1 t) _)
  iframe HK HVt
  isplitl [HW]; · iexists _; iexact HW
  iintro ⟨HK, HVt, HW⟩
  iframe

theorem body_obligation3 (c : Dev nD) :
    BodyObligation (dat3 (F := F) V c) (defs₀ (F := F)) Variants.none () Set.univ := fun t => by
  rw [bigSep_W3, bigSep_W3]
  exact body_triple3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.Kernel.Hand

end
-- ==== Proof.K.Reg4.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev isFirstK4 (i : grid4.Coords) : Prop :=
  (Scalar.cmpi .ne (Scalar.extui (Scalar.cmpi .eq (BitVec.ofNat 32 (i 2).val) 0#32)) 0#32) = 1#1

abbrev isLastK4 (i : grid4.Coords) : Prop := k4_cond2 i = 1#1

theorem isFirstK4_all : ∀ t : Fin cfg4.N, isFirstK4 (grid4.coords t) :=
  (by decide +kernel : ∀ t : Fin grid4.N, isFirstK4 (grid4.coords t))

theorem isLastK4_all : ∀ t : Fin cfg4.N, isLastK4 (grid4.coords t) :=
  (by decide +kernel : ∀ t : Fin grid4.N, isLastK4 (grid4.coords t))

theorem outLive4 : ∀ t : Fin cfg4.N, cfg4.idle 2 (grid4.coords t) = false :=
  (by decide +kernel : ∀ t : Fin grid4.N, idle4 2 (grid4.coords t) = false)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOff4 : (![0, 0] : Fin 2 → Nat) = fun _ => 0 := funext fun a => by fin_cases a <;> rfl

abbrev blockRect4 : Rect S1024x1024 := Rect.unit (s := S1024x1024) ![0, 0] S1024x1024.size inb_S1024x1024_S1024x1024_0_0

def out4_2 (x : Vec F S1024x1024 .f32) (w : Vec F S1024x1024 .bf16) : Vec F S1024x1024 .bf16 :=
  View.canon [⟨blockRect4, k4_pay3 (k4_pay2 x w (k4_pay1 (F := F)))⟩]

theorem blockCover4 {e : EltTy} (p : Vec F S1024x1024 e) (y : S1024x1024.Idx) :
    ∃ pc ∈ ([⟨blockRect4, p⟩] : List (View.Piece (Elt F) S1024x1024 e)), y ∈ pc.1.set :=
  ⟨_, List.mem_singleton_self _, View.mem_set_unit_zero zeroOff4 inb_S1024x1024_S1024x1024_0_0 y⟩

theorem stored4 {sg : RefSig} {κ : Kind} {sp : Space} (vs : View sg κ sp S1024x1024 .f32)
    (x : Vec F S1024x1024 .f32) (w : Vec F S1024x1024 .bf16) :
    (View.canon [⟨blockRect4, k4_pay3 (vs.readCov
        [⟨blockRect4, k4_pay2 (View.ld x blockRect4) (View.ld w blockRect4)
            (vs.readCov [⟨blockRect4, k4_pay1 (F := F)⟩] blockRect4.toLoadRect)⟩,
          ⟨blockRect4, k4_pay1 (F := F)⟩] blockRect4.toLoadRect)⟩] : Vec F S1024x1024 .bf16) = out4_2 x w := by
  rw [View.readCov_cons_toLoadRect, View.readCov_cons_toLoadRect, View.ld_unit_zero zeroOff4, View.ld_unit_zero zeroOff4]
  rfl

set_option maxHeartbeats 1000000 in
theorem sound_kernel4 (c : Dev nD) (E : Set ℕ) (i : grid4.Coords) (hfirst : isFirstK4 i) (hlast : isLastK4 i)
    (arg3 : Memref sig .tc .vmem S1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w
            ∗ owns (c : Thread nD τ) arg5 fullShare (out4_2 x w) ∗ (∃ d, owns (c : Thread nD τ) arg6 fullShare d)) -∗ K ⟨⟩))
      ⊢ wp frame (wpE (defs₀ (F := F)) Variants.none c none) E (cc4__mm_kernel i arg3 harg3 arg4 harg4 arg5 harg5 arg6 harg6) K := by
  simp only [cc4__mm_kernel_eq_skeleton]; unfold cc4__mm_kernel_skel
  unfold owns
  iintro ⟨⟨%fx, %hfx, Hx⟩, ⟨%fw, %hfw, Hw⟩, ⟨%dz, %fz, -, Hz⟩, ⟨%da, %fa, -, Ha⟩, Hk⟩
  subst hfx; subst hfw
  sl_exec (disch := first | exact hfirst | exact hlast)
  sl_step
  iapply Hk
  isplitl [Hx]
  · iexists fx; isplitr; · ipureintro; rfl
    iexact Hx
  isplitl [Hw]
  · iexists fw; isplitr; · ipureintro; rfl
    iexact Hw
  isplitl [Hz]
  · iexists _; isplitr
    swap; · iexact Hz
    ipureintro
    refine (View.read_writes_eq_canon _ _ _ (blockCover4 _)).trans ?_
    sl_unfold_words
    simp only [View.readAt_eq_ld]
    exact stored4 _ _ _
  iexists _; iexists _; isplitr
  swap; · iexact Ha
  ipureintro; rfl

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

abbrev accRef4 : Memref sig .tc .vmem S1024x1024 .f32 := Memref.whole cc4_scratch0

theorem PhiA4_eq (c : Dev nD) :
    (Pipeline.ΦA spec4 c : sProp 𝕄)
      = iprop(iprop(iprop(∃ d, owns (c : Thread nD τ) accRef4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accRef4, owns_whole]
  rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (st4_0 t) fullShare ((dat4 V c).after 0 t) from rfl, after4_0]
  rw [show (dat4 V c).leavesExact 1 t = owns (c : Thread nD τ) (st4_1 t) fullShare ((dat4 V c).after 1 t) from rfl, after4_1]
  rw [show (dat4 V c).leavesExact 2 t = owns (c : Thread nD τ) (st4_2 t) fullShare ((dat4 V c).after 2 t) from by
    unfold Dat.leavesExact; rw [outLive4 t], after4_2]
  rw [show (dat4 V c).Φ t.castSucc = Pipeline.ΦA spec4 c from rfl, PhiA4_eq]
  iintro ⟨⟨⟨Hacc, Hrest⟩, Hg⟩, Ho, ⟨%d0, Hx⟩, ⟨%d1, Hw⟩, ⟨%d2, Hz⟩⟩
  iapply (sound_kernel4 c Set.univ (grid4.coords t) (isFirstK4_all t) (isLastK4_all t) _ _ _ _ _ _ _ _
    (iblk4 V c 0 t) (iblk4 V c 1 t) _)
  isplitl [Hx]; · iexact Hx
  isplitl [Hw]; · iexact Hw
  isplitl [Hz]; · iexists _; iexact Hz
  isplitl [Hacc]; · iexact Hacc
  iintro ⟨Hx, Hw, Hz, Hacc⟩
  isplitl [Hacc Hrest Hg]
  · isplitl [Hacc Hrest]
    · isplitl [Hacc]; · iexact Hacc
      iexact Hrest
    iexact Hg
  isplitl [Ho]; · iexact Ho
  isplitl [Hx]; · iexact Hx
  isplitl [Hw]; · iexact Hw
  iexact Hz

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

end Cert.Kernel.Hand

end
-- ==== Proof.K.Reg5.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

abbrev ms5_0 (t : Fin cfg5.N) : Memref sig .tc .vmem S1024x1024 .bf16 := win5_0.stage (cfg5.slots t 0)
abbrev ms5_1 (t : Fin cfg5.N) : Memref sig .tc .vmem S1024x1024 .bf16 := win5_1.stage (cfg5.slots t 1)
abbrev ms5_2 (t : Fin cfg5.N) : Memref sig .tc .vmem S1024x1024 .bf16 := win5_2.stage (cfg5.slots t 2)
abbrev scM5 : Memref sig .tc .vmem S1024x1024 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5 fullShare d)) ∗ rest5 (F := F) c) ∗ (∃ r, prngReg c r)) := by
  unfold Pipeline.ΦA; rw [scopedRest5_split]; simp only [scM5, owns_whole]; try rfl

theorem hz5 : (![0, 0] : Fin S1024x1024.rank → Nat) = fun _ => 0 := by
  funext a; match a with | ⟨0, _⟩ => rfl | ⟨1, _⟩ => rfl

set_option maxHeartbeats 1000000 in
theorem run5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : cond5_0 i) (hc1 : ¬cond5_1 i)
    (x0 x1 xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k5_pay2 x0 x1 (k5_pay1 (F := F)))) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, View.ld_unit_zero (S := S1024x1024) hz5, View.readCov_unit_zero (S := S1024x1024) _ hz5]

set_option maxHeartbeats 1000000 in
theorem run5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : ¬cond5_0 i) (hc1 : ¬cond5_1 i)
    (x0 x1 xi : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k5_pay2 x0 x1 xs)) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, harg6.read_unread, View.ld_unit_zero (S := S1024x1024) hz5]

set_option maxHeartbeats 1000000 in
theorem run5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : ¬cond5_0 i) (hc1 : cond5_1 i)
    (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay3 (k5_pay2 x0 x1 xs)) ∗ owns (c : Thread nD τ) arg6 fullShare (k5_pay2 x0 x1 xs)) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz5 inb_S1024x1024_S1024x1024_0_0 y⟩)]
    rw [View.canon_cons_unit_zero (S := S1024x1024) hz5]
    simp only [View.readAt_eq_ld, harg3.read_unread, harg4.read_unread, harg6.read_unread, View.ld_unit_zero (S := S1024x1024) hz5, View.readCov_unit_zero (S := S1024x1024) _ hz5]
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, harg6.read_unread, View.ld_unit_zero (S := S1024x1024) hz5]

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev zblk5 (c : Dev nD) (t : Fin cfg5.N) : Vec F S1024x1024 .bf16 := iblk5 V c 0 t
abbrev wblk5 (c : Dev nD) (t : Fin cfg5.N) : Vec F S1024x1024 .bf16 := iblk5 V c 1 t

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

def accAt5 (c : Dev nD) : (n : ℕ) → n < cfg5.N → Vec F S1024x1024 .f32
  | 0, hn => k5_pay2 (zblk5 V c ⟨0, hn⟩) (wblk5 V c ⟨0, hn⟩) (k5_pay1 (F := F))
  | n + 1, hn =>
    if (n + 1) % 4 = 0 then k5_pay2 (zblk5 V c ⟨n + 1, hn⟩) (wblk5 V c ⟨n + 1, hn⟩) (k5_pay1 (F := F))
    else k5_pay2 (zblk5 V c ⟨n + 1, hn⟩) (wblk5 V c ⟨n + 1, hn⟩) (accAt5 c n (Nat.lt_of_succ_lt hn))

theorem accAt5_reset (c : Dev nD) (n : ℕ) (hn : n < cfg5.N) (h : n % 4 = 0) :
    accAt5 V c n hn = k5_pay2 (zblk5 V c ⟨n, hn⟩) (wblk5 V c ⟨n, hn⟩) (k5_pay1 (F := F)) := by
  cases n with
  | zero => rfl
  | succ n => exact if_pos h

theorem accAt5_step (c : Dev nD) (n : ℕ) (hn : n < cfg5.N) (h : ¬n % 4 = 0) :
    accAt5 V c n hn = k5_pay2 (zblk5 V c ⟨n, hn⟩) (wblk5 V c ⟨n, hn⟩) (accAt5 V c (n - 1) (Nat.lt_of_le_of_lt (Nat.sub_le _ _) hn)) := by
  cases n with
  | zero => exact absurd (Nat.zero_mod _) h
  | succ n => exact if_neg h

theorem accAt5_first (c : Dev nD) (t : Fin cfg5.N) (h : t.val % 4 = 0) :
    accAt5 V c t.val t.isLt = k5_pay2 (iblk5 V c 0 t) (iblk5 V c 1 t) k5_pay1 :=
  accAt5_reset V c t.val t.isLt h

theorem accAt5_next (c : Dev nD) (t : Fin cfg5.N) (h : t.val % 4 ≠ 0) :
    accAt5 V c t.val t.isLt = k5_pay2 (iblk5 V c 0 t) (iblk5 V c 1 t) (accAt5 V c (t.val - 1) (Nat.lt_of_le_of_lt (Nat.sub_le _ _) t.isLt)) :=
  accAt5_step V c t.val t.isLt h

def PhiS5 (c : Dev nD) : (n : ℕ) → n ≤ cfg5.N → sProp 𝕄
  | 0, _ => Pipeline.ΦA spec5 c
  | n + 1, hn => iprop(iprop(owns (c : Thread nD τ) scM5 fullShare (accAt5 V c n hn) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (accAt5 V c n hn) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare (accAt5 V c (n - 1) (by omega)) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem share5 (c : Dev nD) (w : Fin cfg5.W) : (dat5 V c).q w = fullShare := rfl

theorem owed5 (c : Dev nD) (t : Fin (cfg5.N + 1)) : (dat5 V c).owed t = 0 := rfl

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  have hN : t.val < 128 := lt_of_lt_of_eq t.isLt (show cfg5.N = 128 from N_5)
  by_cases h0 : t.val % 4 = 0
  · have h1 : ¬t.val % 4 = 3 := by omega
    have hc0 : cond5_0 (grid5.coords t) := (hcond5_0 t).mpr h0
    have hc1 : ¬cond5_1 (grid5.coords t) := fun h => h1 ((hcond5_1 t).mp h)
    rw [Dat.leavesExact_idle (dat5 V c) 2 t (idleAt5_2 t hc1) (noFlush5_2 t hc1)]
    rw [accAt5_reset V c t.val t.isLt h0]
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩⟩
      iapply (run5_A c (grid5.coords t) _ _ _ _ _ _ _ _ hc0 hc1 (zblk5 V c t) (wblk5 V c t) ((dat5 V c).before 2 t d2) Set.univ _)
      iframe H0 H1 H2 HS0
      iintro ⟨H0, H1, H2, HS0⟩
      iframe
      iexists _; iexact H2
    · rw [PhiS5_castSucc V c t, PhiS5_pos V c _ _ hz]
      iintro ⟨⟨⟨HS0, Hr⟩, Hg⟩, Ho, ⟨%d0, H0⟩, ⟨%d1, H1⟩, ⟨%d2, H2⟩⟩
      iapply (run5_A c (grid5.coords t) _ _ _ _ _ _ _ _ hc0 hc1 (zblk5 V c t) (wblk5 V c t) ((dat5 V c).before 2 t d2) Set.univ _)
      isplitl [H0]; · iexact H0
      isplitl [H1]; · iexact H1
      isplitl [H2]; · iexact H2
      isplitl [HS0]; · iexists _; iexact HS0
      iintro ⟨H0, H1, H2, HS0⟩
      iframe
      iexists _; iexact H2
  · have hz : t.val ≠ 0 := fun h => h0 (by rw [h])
    have hc0 : ¬cond5_0 (grid5.coords t) := fun h => h0 ((hcond5_0 t).mp h)
    rw [accAt5_step V c t.val t.isLt h0]
    rw [PhiS5_castSucc V c t, PhiS5_pos V c _ _ hz]
    by_cases h1 : t.val % 4 = 3
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2, accAt5_step V c t.val t.isLt h0]
      iintro ⟨⟨⟨HS0, Hr⟩, Hg⟩, Ho, ⟨%d0, H0⟩, ⟨%d1, H1⟩, ⟨%d2, H2⟩⟩
      iapply (run5_C c (grid5.coords t) _ _ _ _ _ _ _ _ hc0 hc1 (zblk5 V c t) (wblk5 V c t) _ Set.univ _)
      isplitl [H0]; · iexact H0
      isplitl [H1]; · iexact H1
      isplitl [H2]; · iexists _; iexact H2
      isplitl [HS0]; · iexact HS0
      iintro ⟨H0, H1, H2, HS0⟩
      iframe
    · have hc1 : ¬cond5_1 (grid5.coords t) := fun h => h1 ((hcond5_1 t).mp h)
      rw [Dat.leavesExact_idle (dat5 V c) 2 t (idleAt5_2 t hc1) (noFlush5_2 t hc1)]
      iintro ⟨⟨⟨HS0, Hr⟩, Hg⟩, Ho, ⟨%d0, H0⟩, ⟨%d1, H1⟩, ⟨%d2, H2⟩⟩
      iapply (run5_B c (grid5.coords t) _ _ _ _ _ _ _ _ hc0 hc1 (zblk5 V c t) (wblk5 V c t) ((dat5 V c).before 2 t d2) _ Set.univ _)
      iframe H0 H1 H2 HS0
      iintro ⟨H0, H1, H2, HS0⟩
      iframe
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]; · iexists _; iexact HS0
    iexact Hr
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

end Cert.Kernel.Hand

end
-- ==== Proof.K.Reg6.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import proofs.«134585_j83811991814293_1_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)

abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev ms6_0 (t : Fin cfg6.N) : Memref sig .tc .vmem S1024x1024 .bf16 := win6_0.stage (cfg6.slots t 0)
abbrev ms6_1 (t : Fin cfg6.N) : Memref sig .tc .vmem S1024x1024 .bf16 := win6_1.stage (cfg6.slots t 1)
abbrev ms6_2 (t : Fin cfg6.N) : Memref sig .tc .vmem S1024x1024 .bf16 := win6_2.stage (cfg6.slots t 2)
abbrev scM6 : Memref sig .tc .vmem S1024x1024 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop(iprop((∃ d, owns (c : Thread nD τ) scM6 fullShare d)) ∗ rest6 (F := F) c) ∗ (∃ r, prngReg c r)) := by
  unfold Pipeline.ΦA; rw [scopedRest6_split]; simp only [scM6, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev zblk6 (c : Dev nD) (t : Fin cfg6.N) : Vec F S1024x1024 .bf16 := iblk6 V c 0 t
abbrev wblk6 (c : Dev nD) (t : Fin cfg6.N) : Vec F S1024x1024 .bf16 := iblk6 V c 1 t

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

def accAt6 (c : Dev nD) : (n : ℕ) → n < cfg6.N → Vec F S1024x1024 .f32
  | 0, hn => k5_pay2 (zblk6 V c ⟨0, hn⟩) (wblk6 V c ⟨0, hn⟩) (k5_pay1 (F := F))
  | n + 1, hn =>
    if (n + 1) % 4 = 0 then k5_pay2 (zblk6 V c ⟨n + 1, hn⟩) (wblk6 V c ⟨n + 1, hn⟩) (k5_pay1 (F := F))
    else k5_pay2 (zblk6 V c ⟨n + 1, hn⟩) (wblk6 V c ⟨n + 1, hn⟩) (accAt6 c n (Nat.lt_of_succ_lt hn))

theorem accAt6_reset (c : Dev nD) (n : ℕ) (hn : n < cfg6.N) (h : n % 4 = 0) :
    accAt6 V c n hn = k5_pay2 (zblk6 V c ⟨n, hn⟩) (wblk6 V c ⟨n, hn⟩) (k5_pay1 (F := F)) := by
  cases n with
  | zero => rfl
  | succ n => exact if_pos h

theorem accAt6_step (c : Dev nD) (n : ℕ) (hn : n < cfg6.N) (h : ¬n % 4 = 0) :
    accAt6 V c n hn = k5_pay2 (zblk6 V c ⟨n, hn⟩) (wblk6 V c ⟨n, hn⟩) (accAt6 V c (n - 1) (Nat.lt_of_le_of_lt (Nat.sub_le _ _) hn)) := by
  cases n with
  | zero => exact absurd (Nat.zero_mod _) h
  | succ n => exact if_neg h

theorem accAt6_first (c : Dev nD) (t : Fin cfg6.N) (h : t.val % 4 = 0) :
    accAt6 V c t.val t.isLt = k5_pay2 (iblk6 V c 0 t) (iblk6 V c 1 t) k5_pay1 :=
  accAt6_reset V c t.val t.isLt h

theorem accAt6_next (c : Dev nD) (t : Fin cfg6.N) (h : t.val % 4 ≠ 0) :
    accAt6 V c t.val t.isLt = k5_pay2 (iblk6 V c 0 t) (iblk6 V c 1 t) (accAt6 V c (t.val - 1) (Nat.lt_of_le_of_lt (Nat.sub_le _ _) t.isLt)) :=
  accAt6_step V c t.val t.isLt h

def PhiS6 (c : Dev nD) : (n : ℕ) → n ≤ cfg6.N → sProp 𝕄
  | 0, _ => Pipeline.ΦA spec6 c
  | n + 1, hn => iprop(iprop(owns (c : Thread nD τ) scM6 fullShare (accAt6 V c n hn) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (accAt6 V c n hn) ∗ rest6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6 fullShare (accAt6 V c (n - 1) (by omega)) ∗ rest6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k5_pay3 (accAt6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem share6 (c : Dev nD) (w : Fin cfg6.W) : (dat6 V c).q w = fullShare := rfl

theorem owed6 (c : Dev nD) (t : Fin (cfg6.N + 1)) : (dat6 V c).owed t = 0 := rfl

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k5_pay3 (accAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- Region 6 runs region 5's body on its own buffers, so region 5's three runs of the body serve here. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show cc6__mm_kernel (F := F) = cc5__mm_kernel (F := F) from rfl]
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 128 := lt_of_lt_of_eq t.isLt (show cfg6.N = 128 from N_6)
  by_cases h0 : t.val % 4 = 0
  · have h1 : ¬t.val % 4 = 3 := by omega
    have hc0 : cond6_0 (grid6.coords t) := (hcond6_0 t).mpr h0
    have hc1 : ¬cond6_1 (grid6.coords t) := fun h => h1 ((hcond6_1 t).mp h)
    rw [Dat.leavesExact_idle (dat6 V c) 2 t (idleAt6_2 t hc1) (noFlush6_2 t hc1)]
    rw [accAt6_reset V c t.val t.isLt h0]
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩⟩
      iapply (run5_A c (grid6.coords t) _ _ _ _ _ _ _ _ hc0 hc1 (zblk6 V c t) (wblk6 V c t) ((dat6 V c).before 2 t d2) Set.univ _)
      iframe H0 H1 H2 HS0
      iintro ⟨H0, H1, H2, HS0⟩
      iframe
      iexists _; iexact H2
    · rw [PhiS6_castSucc V c t, PhiS6_pos V c _ _ hz]
      iintro ⟨⟨⟨HS0, Hr⟩, Hg⟩, Ho, ⟨%d0, H0⟩, ⟨%d1, H1⟩, ⟨%d2, H2⟩⟩
      iapply (run5_A c (grid6.coords t) _ _ _ _ _ _ _ _ hc0 hc1 (zblk6 V c t) (wblk6 V c t) ((dat6 V c).before 2 t d2) Set.univ _)
      isplitl [H0]; · iexact H0
      isplitl [H1]; · iexact H1
      isplitl [H2]; · iexact H2
      isplitl [HS0]; · iexists _; iexact HS0
      iintro ⟨H0, H1, H2, HS0⟩
      iframe
      iexists _; iexact H2
  · have hz : t.val ≠ 0 := fun h => h0 (by rw [h])
    have hc0 : ¬cond6_0 (grid6.coords t) := fun h => h0 ((hcond6_0 t).mp h)
    rw [accAt6_step V c t.val t.isLt h0]
    rw [PhiS6_castSucc V c t, PhiS6_pos V c _ _ hz]
    by_cases h1 : t.val % 4 = 3
    · have hc1 : cond6_1 (grid6.coords t) := (hcond6_1 t).mpr h1
      rw [show (dat6 V c).leavesExact 2 t = owns (c : Thread nD τ) (ms6_2 t) fullShare ((dat6 V c).after 2 t) from by
        unfold Dat.leavesExact; rw [liveAt6_2 t hc1], after6_2, accAt6_step V c t.val t.isLt h0]
      iintro ⟨⟨⟨HS0, Hr⟩, Hg⟩, Ho, ⟨%d0, H0⟩, ⟨%d1, H1⟩, ⟨%d2, H2⟩⟩
      iapply (run5_C c (grid6.coords t) _ _ _ _ _ _ _ _ hc0 hc1 (zblk6 V c t) (wblk6 V c t) _ Set.univ _)
      isplitl [H0]; · iexact H0
      isplitl [H1]; · iexact H1
      isplitl [H2]; · iexists _; iexact H2
      isplitl [HS0]; · iexact HS0
      iintro ⟨H0, H1, H2, HS0⟩
      iframe
    · have hc1 : ¬cond6_1 (grid6.coords t) := fun h => h1 ((hcond6_1 t).mp h)
      rw [Dat.leavesExact_idle (dat6 V c) 2 t (idleAt6_2 t hc1) (noFlush6_2 t hc1)]
      iintro ⟨⟨⟨HS0, Hr⟩, Hg⟩, Ho, ⟨%d0, H0⟩, ⟨%d1, H1⟩, ⟨%d2, H2⟩⟩
      iapply (run5_B c (grid6.coords t) _ _ _ _ _ _ _ _ hc0 hc1 (zblk6 V c t) (wblk6 V c t) ((dat6 V c).before 2 t d2) _ Set.univ _)
      iframe H0 H1 H2 HS0
      iintro ⟨H0, H1, H2, HS0⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]; · iexists _; iexact HS0
    iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 128 := N_6; omega)

end Cert.Kernel.Hand

end
-- ==== Proof.K.Reg7.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOff7 : (![0, 0] : Fin 2 → Nat) = fun _ => 0 := funext fun a => by fin_cases a <;> rfl

theorem read_storeWhole7 {sg : RefSig} {κ : Kind} {sp : Space} (v : View sg κ sp S1024x1000 .f32) (f : v.ty.Contents (Elt F))
    (p : Vec F S1024x1000 .f32) (L : List (View.Piece (Elt F) S1024x1000 .f32)) :
    v.read (Elt F) (v.writes (Elt F) f (⟨Rect.unit ![0, 0] S1024x1000.size inb_S1024x1000_S1024x1000_0_0, p⟩ :: L)) = p := by
  rw [View.read_writes_eq_canon _ _ _ (fun y => ⟨_, List.mem_cons_self, View.mem_set_unit_zero zeroOff7 inb_S1024x1000_S1024x1000_0_0 y⟩),
    View.canon_cons_unit_zero (S := S1024x1000) zeroOff7]

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 (i : grid7.Coords) : cfg7.idle 0 i = false := rfl
theorem liveAt7_1 (i : grid7.Coords) : cfg7.idle 1 i = false := rfl
theorem idleAt7_2 (i : grid7.Coords) (h : ¬cond7_1 i) : cfg7.idle 2 i = true := by
  show (!(k7_cond2 i == 1#1)) = true
  rw [Bool.not_eq_true', beq_eq_false_iff_ne]; exact h
theorem liveAt7_2 (i : grid7.Coords) (h : cond7_1 i) : cfg7.idle 2 i = false := by
  show (!(k7_cond2 i == 1#1)) = false
  rw [Bool.not_eq_false', beq_iff_eq]; exact h
theorem noFlush7_2 (t : Fin cfg7.N) (h : ¬t.val % 4 = 3) : (cfg7.win 2).flush t = false := by
  cases hf : (cfg7.win 2).flush t with
  | false => rfl
  | true => exact absurd ((flush7_2 t).mp hf) h

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) : Memref sig .tc .vmem S1024x1024 .bf16 := win7_0.stage (cfg7.slots t 0)
abbrev ms7_1 (t : Fin cfg7.N) : Memref sig .tc .vmem S1024x1000 .bf16 := win7_1.stage (cfg7.slots t 1)
abbrev ms7_2 (t : Fin cfg7.N) : Memref sig .tc .vmem S1024x1000 .f32 := win7_2.stage (cfg7.slots t 2)
abbrev scM7 : Memref sig .tc .vmem S1024x1000 .f32 := Memref.whole cc7_scratch0

abbrev others7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ others7 c) ∗ (∃ r, prngReg c r)) := by
  unfold Pipeline.ΦA; rw [scopedRest7_split]; simp only [scM7, owns_whole]; try rfl

set_option maxHeartbeats 1000000 in
theorem run7_reset (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : cond7_0 i) (hc1 : ¬cond7_1 i)
    (z : Vec F S1024x1024 .bf16) (w : Vec F S1024x1000 .bf16) (o : Vec F S1024x1000 .f32)
    (E : Set ℕ) (K : PUnit → sProp 𝕄) :
    iprop(owns (c : Thread nD τ) arg3 fullShare z ∗ owns (c : Thread nD τ) arg4 fullShare w
        ∗ owns (c : Thread nD τ) arg5 fullShare o ∗ (∃ d, owns (c : Thread nD τ) arg6 fullShare d)
        ∗ (iprop(owns (c : Thread nD τ) arg3 fullShare z ∗ owns (c : Thread nD τ) arg4 fullShare w
            ∗ owns (c : Thread nD τ) arg5 fullShare o
            ∗ owns (c : Thread nD τ) arg6 fullShare (k7_pay2 z w (k7_pay1 (F := F)))) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [read_storeWhole7, View.readCov_unit_zero (S := S1024x1000) _ zeroOff7]
  simp only [View.readAt_eq_ld, harg3.read_unread, harg4.read_unread, View.ld_unit_zero (S := S1024x1024) zeroOff7,
    View.ld_unit_zero (S := S1024x1000) zeroOff7]

set_option maxHeartbeats 1000000 in
theorem run7_add (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : ¬cond7_0 i) (hc1 : ¬cond7_1 i)
    (z : Vec F S1024x1024 .bf16) (w : Vec F S1024x1000 .bf16) (o : Vec F S1024x1000 .f32) (s : Vec F S1024x1000 .f32)
    (E : Set ℕ) (K : PUnit → sProp 𝕄) :
    iprop(owns (c : Thread nD τ) arg3 fullShare z ∗ owns (c : Thread nD τ) arg4 fullShare w
        ∗ owns (c : Thread nD τ) arg5 fullShare o ∗ owns (c : Thread nD τ) arg6 fullShare s
        ∗ (iprop(owns (c : Thread nD τ) arg3 fullShare z ∗ owns (c : Thread nD τ) arg4 fullShare w
            ∗ owns (c : Thread nD τ) arg5 fullShare o
            ∗ owns (c : Thread nD τ) arg6 fullShare (k7_pay2 z w s)) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [read_storeWhole7]
  simp only [View.readAt_eq_ld, harg3.read_unread, harg4.read_unread, harg6.read_unread, View.ld_unit_zero (S := S1024x1024) zeroOff7,
    View.ld_unit_zero (S := S1024x1000) zeroOff7]

set_option maxHeartbeats 1000000 in
theorem run7_store (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : ¬cond7_0 i) (hc1 : cond7_1 i)
    (z : Vec F S1024x1024 .bf16) (w : Vec F S1024x1000 .bf16) (s : Vec F S1024x1000 .f32)
    (E : Set ℕ) (K : PUnit → sProp 𝕄) :
    iprop(owns (c : Thread nD τ) arg3 fullShare z ∗ owns (c : Thread nD τ) arg4 fullShare w
        ∗ (∃ d, owns (c : Thread nD τ) arg5 fullShare d) ∗ owns (c : Thread nD τ) arg6 fullShare s
        ∗ (iprop(owns (c : Thread nD τ) arg3 fullShare z ∗ owns (c : Thread nD τ) arg4 fullShare w
            ∗ owns (c : Thread nD τ) arg5 fullShare (k7_pay2 z w s)
            ∗ owns (c : Thread nD τ) arg6 fullShare (k7_pay2 z w s)) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_storeWhole7, View.readCov_unit_zero (S := S1024x1000) _ zeroOff7]
    simp only [View.readAt_eq_ld, harg3.read_unread, harg4.read_unread, harg6.read_unread, View.ld_unit_zero (S := S1024x1024) zeroOff7,
      View.ld_unit_zero (S := S1024x1000) zeroOff7]
  iexists _; isplitr
  swap; · iexact HS
  ipureintro
  sl_unfold_run_names
  rw [read_storeWhole7]
  simp only [View.readAt_eq_ld, harg3.read_unread, harg4.read_unread, harg6.read_unread, View.ld_unit_zero (S := S1024x1024) zeroOff7,
    View.ld_unit_zero (S := S1024x1000) zeroOff7]

def accAt7 (c : Dev nD) : (n : ℕ) → n < cfg7.N → Vec F S1024x1000 .f32
  | 0, hn => k7_pay2 (iblk7 V c 0 ⟨0, hn⟩) (iblk7 V c 1 ⟨0, hn⟩) (k7_pay1 (F := F))
  | n + 1, hn =>
    if (n + 1) % 4 = 0 then k7_pay2 (iblk7 V c 0 ⟨n + 1, hn⟩) (iblk7 V c 1 ⟨n + 1, hn⟩) (k7_pay1 (F := F))
    else k7_pay2 (iblk7 V c 0 ⟨n + 1, hn⟩) (iblk7 V c 1 ⟨n + 1, hn⟩) (accAt7 c n (Nat.lt_of_succ_lt hn))

theorem accAt7_first (c : Dev nD) (t : Fin cfg7.N) (h : t.val % 4 = 0) :
    accAt7 V c t.val t.isLt = k7_pay2 (iblk7 V c 0 t) (iblk7 V c 1 t) k7_pay1 := by
  obtain ⟨n, hn⟩ := t
  cases n with
  | zero => rfl
  | succ n => exact if_pos h

theorem accAt7_next (c : Dev nD) (t : Fin cfg7.N) (h : t.val % 4 ≠ 0) :
    accAt7 V c t.val t.isLt
      = k7_pay2 (iblk7 V c 0 t) (iblk7 V c 1 t) (accAt7 V c (t.val - 1) (Nat.lt_of_le_of_lt (Nat.sub_le _ _) t.isLt)) := by
  obtain ⟨n, hn⟩ := t
  cases n with
  | zero => exact absurd (Nat.zero_mod _) h
  | succ n => exact if_neg h

def PhiS7 (c : Dev nD) : (n : ℕ) → n ≤ cfg7.N → sProp 𝕄
  | 0, _ => Pipeline.ΦA spec7 c
  | n + 1, hn => iprop(iprop(owns (c : Thread nD τ) scM7 fullShare (accAt7 V c n hn) ∗ others7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (accAt7 V c n hn) ∗ others7 c) ∗ (∃ r, prngReg c r)) := rfl

theorem PhiS7_pos (c : Dev nD) (n : ℕ) (h : n ≤ cfg7.N) (hz : n ≠ 0) :
    PhiS7 V c n h = iprop(iprop(owns (c : Thread nD τ) scM7 fullShare (accAt7 V c (n - 1) (by omega)) ∗ others7 c) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accAt7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem share7 (c : Dev nD) (w : Fin cfg7.W) : (dat7 V c).q w = fullShare := by
  dsimp only [dat7]

theorem owed7 (c : Dev nD) (t : Fin (cfg7.N + 1)) : (dat7 V c).owed t = 0 := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accAt7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (ms7_0 t) fullShare ((dat7 V c).after 0 t) from by
    unfold Dat.leavesExact; rw [liveAt7_0 (grid7.coords t)], after7_0]
  rw [show (dat7 V c).leavesExact 1 t = owns (c : Thread nD τ) (ms7_1 t) fullShare ((dat7 V c).after 1 t) from by
    unfold Dat.leavesExact; rw [liveAt7_1 (grid7.coords t)], after7_1]
  by_cases h0 : t.val % 4 = 0
  · have h1 : ¬t.val % 4 = 3 := by omega
    have hc0 : cond7_0 (grid7.coords t) := (hcond7_0 t).mpr h0
    have hc1 : ¬cond7_1 (grid7.coords t) := fun h => h1 ((hcond7_1 t).mp h)
    rw [Dat.leavesExact_idle (dat7 V c) 2 t (idleAt7_2 (grid7.coords t) hc1) (noFlush7_2 t h1)]
    rw [accAt7_first V c t h0]
    by_cases hz : t.val = 0
    · rw [PhiS7_castSucc V c t, PhiS7_zero V c _ _ hz, PhiA7_eq]
      iintro ⟨⟨⟨HS, Hr⟩, Hg⟩, Ho, ⟨%d0, H0⟩, ⟨%d1, H1⟩, ⟨%d2, H2⟩⟩
      iapply (run7_reset c (grid7.coords t) _ _ _ _ _ _ _ _ hc0 hc1 (iblk7 V c 0 t) (iblk7 V c 1 t) ((dat7 V c).before 2 t d2) Set.univ _)
      iframe H0 H1 H2 HS
      iintro ⟨H0, H1, H2, HS⟩
      iframe
      iexists _; iexact H2
    · rw [PhiS7_castSucc V c t, PhiS7_pos V c _ _ hz]
      iintro ⟨⟨⟨HS, Hr⟩, Hg⟩, Ho, ⟨%d0, H0⟩, ⟨%d1, H1⟩, ⟨%d2, H2⟩⟩
      iapply (run7_reset c (grid7.coords t) _ _ _ _ _ _ _ _ hc0 hc1 (iblk7 V c 0 t) (iblk7 V c 1 t) ((dat7 V c).before 2 t d2) Set.univ _)
      iframe H0 H1
      isplitl [H2]; · iexact H2
      isplitl [HS]; · iexists _; iexact HS
      iintro ⟨H0, H1, H2, HS⟩
      iframe
      iexists _; iexact H2
  · have hz : t.val ≠ 0 := fun h => h0 (by rw [h])
    have hc0 : ¬cond7_0 (grid7.coords t) := fun h => h0 ((hcond7_0 t).mp h)
    rw [accAt7_next V c t h0]
    rw [PhiS7_castSucc V c t, PhiS7_pos V c _ _ hz]
    by_cases h1 : t.val % 4 = 3
    · have hc1 : cond7_1 (grid7.coords t) := (hcond7_1 t).mpr h1
      rw [show (dat7 V c).leavesExact 2 t = owns (c : Thread nD τ) (ms7_2 t) fullShare ((dat7 V c).after 2 t) from by
        unfold Dat.leavesExact; rw [liveAt7_2 (grid7.coords t) hc1], after7_2, accAt7_next V c t h0]
      iintro ⟨⟨⟨HS, Hr⟩, Hg⟩, Ho, ⟨%d0, H0⟩, ⟨%d1, H1⟩, ⟨%d2, H2⟩⟩
      iapply (run7_store c (grid7.coords t) _ _ _ _ _ _ _ _ hc0 hc1 (iblk7 V c 0 t) (iblk7 V c 1 t)
        (accAt7 V c (t.val - 1) (Nat.lt_of_le_of_lt (Nat.sub_le _ _) t.isLt)) Set.univ _)
      iframe H0 H1
      isplitl [H2]; · iexists _; iexact H2
      isplitl [HS]; · iexact HS
      iintro ⟨H0, H1, H2, HS⟩
      iframe
    · have hc1 : ¬cond7_1 (grid7.coords t) := fun h => h1 ((hcond7_1 t).mp h)
      rw [Dat.leavesExact_idle (dat7 V c) 2 t (idleAt7_2 (grid7.coords t) hc1) (noFlush7_2 t h1)]
      iintro ⟨⟨⟨HS, Hr⟩, Hg⟩, Ho, ⟨%d0, H0⟩, ⟨%d1, H1⟩, ⟨%d2, H2⟩⟩
      iapply (run7_add c (grid7.coords t) _ _ _ _ _ _ _ _ hc0 hc1 (iblk7 V c 0 t) (iblk7 V c 1 t) ((dat7 V c).before 2 t d2)
        (accAt7 V c (t.val - 1) (Nat.lt_of_le_of_lt (Nat.sub_le _ _) t.isLt)) Set.univ _)
      iframe H0 H1 H2 HS
      iintro ⟨H0, H1, H2, HS⟩
      iframe
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]

theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]
    · iexists _; iexact HS
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 32 := N_7; omega)

end Cert.Kernel.Hand

end
-- ==== Proof.K.Reg8.lean ====
import proofs.«134585_j83811991814293_1_alg».proof.Proof.Gen.Kernel.Launch
import proofs.«134585_j83811991814293_1_alg».proof.Proof.Gen.Kernel.Skeleton
import proofs.«134585_j83811991814293_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem logits_before_of {c : Dev nD} (dat : Dat τ (Elt F) Unit ℕ (UR sig nD τ) ℕ cfg8 c) (hA : dat.A 0 = V c (Pipeline.arrRef spec8 0))
    (hrows : ∀ t, dat.after 0 t = iblk8 V c 0 t) (t : Fin cfg8.N) (d) : dat.before 0 t d = iblk8 V c 0 t := by
  have hkeep : ∀ t, (cfg8.win 0).cut (cfg8.grid.coords t) (dat.after 0 t) = dat.blockOf 0 t := fun t => by
    rw [hrows]; unfold Dat.blockOf iblk8; rw [hA]; try rfl
  refine (dat.before_in_eq_fetched 0 rfl (fun _ => rfl) (fun _ _ _ => rfl) hkeep t d).trans ?_
  unfold Dat.fetched Dat.blockOf iblk8; rw [hA]; try rfl

abbrev rows8 : Rect S1024x1000 := Rect.unit (s := S1024x1000) ![0, 0] S1024x1000.size inb_S1024x1000_S1024x1000_0_0

def lsmBlock8 (x : Vec F S1024x1000 .f32) : Vec F S1024x1000 .f32 :=
  View.canon [⟨rows8, k8_pay1 (View.ld x rows8)⟩]

theorem rows8_cover (p : Vec F S1024x1000 .f32) (y : S1024x1000.Idx) :
    ∃ pc ∈ ([⟨rows8, p⟩] : List (View.Piece (Elt F) S1024x1000 .f32)), y ∈ pc.1.set :=
  View.cover_of_tiled [⟨rows8, p⟩] S1024x1000.size (by rfl) y

set_option maxHeartbeats 1000000 in
theorem sound_lsm8 (c : Dev nD) (E : Set ℕ) (i : grid8.Coords) (arg1 : Memref sig .tc .vmem S1024x1000 .f32) (harg1 : arg1.IsWhole)
    (arg2 : Memref sig .tc .vmem S1024x1000 .f32) (harg2 : arg2.IsWhole) (x : Vec F S1024x1000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (lsmBlock8 x)) -∗ K ⟨⟩))
      ⊢ wp frame (wpE (defs₀ (F := F)) Variants.none c none) E (cc8__log_softmax_kernel i arg1 harg1 arg2 harg2) K := by
  simp only [cc8__log_softmax_kernel_eq_skeleton]; unfold cc8__log_softmax_kernel_skel
  unfold owns
  iintro ⟨⟨%fx, %hfx, Hx⟩, ⟨%d, %fd, -, Hd⟩, Hk⟩
  subst hfx
  sl_exec
  sl_step
  iapply Hk
  isplitl [Hx]
  · iexists fx; isplitr; · ipureintro; rfl
    iexact Hx
  iexists _; isplitr
  swap; · iexact Hd
  ipureintro
  exact View.read_writes_eq_canon _ _ _ (rows8_cover _)

def dat8 (V : (c : Dev nD) → (b : Ref sig .tc) → Buf (Elt F) ((c : Thread nD τ).loc b)) (c : Dev nD) : Dat τ (Elt F) Unit ℕ (UR sig nD τ) ℕ cfg8 c where
  A w := V c (Pipeline.arrRef spec8 w)
  after w t := match w with
    | ⟨0, _⟩ => iblk8 V c 0 t
    | ⟨1, _⟩ => lsmBlock8 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem share8 (c : Dev nD) (w : Fin cfg8.W) : (dat8 V c).q w = fullShare := by
  dsimp only [dat8]

theorem owed8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = lsmBlock8 (iblk8 V c 0 t) := by dsimp only [dat8]

theorem before8_0 (c : Dev nD) (t : Fin cfg8.N) (d) : (dat8 V c).before 0 t d = iblk8 V c 0 t :=
  logits_before_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, Hin⟩, ⟨%d1, Hout⟩⟩
  iapply (sound_lsm8 c Set.univ _ _ _ _ _ (iblk8 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := .rfl

theorem hout8 (c : Dev nD) : (dat8 V c).Φ (Fin.last cfg8.N) ⊢ (Pipeline.ΦA spec8 c : sProp 𝕄) := .rfl

end Cert.Kernel.Hand

end
-- ==== Proof.K.Run.lean ====
import proofs.«134585_j83811991814293_1_alg».proof.Proof.K.Reg0
import proofs.«134585_j83811991814293_1_alg».proof.Proof.K.Reg1
import proofs.«134585_j83811991814293_1_alg».proof.Proof.K.Reg2
import proofs.«134585_j83811991814293_1_alg».proof.Proof.K.Reg3
import proofs.«134585_j83811991814293_1_alg».proof.Proof.K.Reg4
import proofs.«134585_j83811991814293_1_alg».proof.Proof.K.Reg5
import proofs.«134585_j83811991814293_1_alg».proof.Proof.K.Reg6
import proofs.«134585_j83811991814293_1_alg».proof.Proof.K.Reg7
import proofs.«134585_j83811991814293_1_alg».proof.Proof.K.Reg8
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

/-- The buffer contents after a region: its arrays at their final contents, every other buffer unchanged. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b

def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b

def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev V5 : (c : Dev nD) → (b : Ref sig .tc) → Buf (Elt F) ((c : Thread nD τ).loc b) := fun c b => W5 m c b

def W6 (c : Dev nD) : Valuation τ sig (Elt F) :=
  Pipeline.withArrays spec5 c (W5 m c) fun w => (dat5 (V5 m) c).arrAt w cfg5.N
theorem W6_arr (c : Dev nD) (w : Fin cfg5.W) :
    W6 m c (Proc.devRef .tc (Pipeline.arrRef spec5 w)) = (dat5 (V5 m) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m c (Proc.devRef .tc b) = W5 m c (Proc.devRef .tc b) := by
  unfold W6; exact Pipeline.withArrays_of_ne spec5 c _ _ b hb
abbrev V6 : (c : Dev nD) → (b : Ref sig .tc) → Buf (Elt F) ((c : Thread nD τ).loc b) := fun c b => W6 m c b

def W7 (c : Dev nD) : Valuation τ sig (Elt F) :=
  Pipeline.withArrays spec6 c (W6 m c) fun w => (dat6 (V6 m) c).arrAt w cfg6.N
theorem W7_arr (c : Dev nD) (w : Fin cfg6.W) :
    W7 m c (Proc.devRef .tc (Pipeline.arrRef spec6 w)) = (dat6 (V6 m) c).arrAt w cfg6.N := by
  unfold W7; exact Pipeline.withArrays_arr spec6 launch6.win.arr_inj c _ _ w
theorem W7_of_ne (c : Dev nD) (b : Ref sig .tc) (hb : ∀ w, Pipeline.arrRef spec6 w ≠ b) :
    W7 m c (Proc.devRef .tc b) = W6 m c (Proc.devRef .tc b) := by
  unfold W7; exact Pipeline.withArrays_of_ne spec6 c _ _ b hb
abbrev V7 : (c : Dev nD) → (b : Ref sig .tc) → Buf (Elt F) ((c : Thread nD τ).loc b) := fun c b => W7 m c b

def W8 (c : Dev nD) : Valuation τ sig (Elt F) :=
  Pipeline.withArrays spec7 c (W7 m c) fun w => (dat7 (V7 m) c).arrAt w cfg7.N
theorem W8_arr (c : Dev nD) (w : Fin cfg7.W) :
    W8 m c (Proc.devRef .tc (Pipeline.arrRef spec7 w)) = (dat7 (V7 m) c).arrAt w cfg7.N := by
  unfold W8; exact Pipeline.withArrays_arr spec7 launch7.win.arr_inj c _ _ w
theorem W8_of_ne (c : Dev nD) (b : Ref sig .tc) (hb : ∀ w, Pipeline.arrRef spec7 w ≠ b) :
    W8 m c (Proc.devRef .tc b) = W7 m c (Proc.devRef .tc b) := by
  unfold W8; exact Pipeline.withArrays_of_ne spec7 c _ _ b hb
abbrev V8 : (c : Dev nD) → (b : Ref sig .tc) → Buf (Elt F) ((c : Thread nD τ).loc b) := fun c b => W8 m c b

def W9 (c : Dev nD) : Valuation τ sig (Elt F) :=
  Pipeline.withArrays spec8 c (W8 m c) fun w => (dat8 (V8 m) c).arrAt w cfg8.N
theorem W9_arr (c : Dev nD) (w : Fin cfg8.W) :
    W9 m c (Proc.devRef .tc (Pipeline.arrRef spec8 w)) = (dat8 (V8 m) c).arrAt w cfg8.N := by
  unfold W9; exact Pipeline.withArrays_arr spec8 launch8.win.arr_inj c _ _ w
theorem W9_of_ne (c : Dev nD) (b : Ref sig .tc) (hb : ∀ w, Pipeline.arrRef spec8 w ≠ b) :
    W9 m c (Proc.devRef .tc b) = W8 m c (Proc.devRef .tc b) := by
  unfold W9; exact Pipeline.withArrays_of_ne spec8 c _ _ b hb
abbrev V9 : (c : Dev nD) → (b : Ref sig .tc) → Buf (Elt F) ((c : Thread nD τ).loc b) := fun c b => W9 m c b

/-- An input window's array holds after the region what it held before. -/
theorem W1_in (c : Dev nD) (w : Fin cfg0.W) (h : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w h _).trans (A_eq0 (V0 m) c w))

theorem W2_in (c : Dev nD) (w : Fin cfg1.W) (h : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w h _).trans (A_eq1 (V1 m) c w))

theorem W3_in (c : Dev nD) (w : Fin cfg2.W) (h : (cfg2.win w).isOut = false) :
    W3 m c (Proc.devRef .tc (Pipeline.arrRef spec2 w)) = W2 m c (Proc.devRef .tc (Pipeline.arrRef spec2 w)) :=
  (W3_arr m c w).trans (((dat2 (V2 m) c).arrAt_in w h _).trans (A_eq2 (V2 m) c w))

theorem W4_in (c : Dev nD) (w : Fin cfg3.W) (h : (cfg3.win w).isOut = false) :
    W4 m c (Proc.devRef .tc (Pipeline.arrRef spec3 w)) = W3 m c (Proc.devRef .tc (Pipeline.arrRef spec3 w)) :=
  (W4_arr m c w).trans (((dat3 (V3 m) c).arrAt_in w h _).trans (A_eq3 (V3 m) c w))

theorem W5_in (c : Dev nD) (w : Fin cfg4.W) (h : (cfg4.win w).isOut = false) :
    W5 m c (Proc.devRef .tc (Pipeline.arrRef spec4 w)) = W4 m c (Proc.devRef .tc (Pipeline.arrRef spec4 w)) :=
  (W5_arr m c w).trans (((dat4 (V4 m) c).arrAt_in w h _).trans (A_eq4 (V4 m) c w))

theorem W9_main_arg0 (c : Dev nD) : W9 m c (Proc.devRef .tc main_arg0) = m ((c : Thread nD τ).loc main_arg0) :=
  (W9_of_ne m c _ (by decide)).trans <| (W8_of_ne m c _ (by decide)).trans <| (W7_of_ne m c _ (by decide)).trans <|
    (W6_of_ne m c _ (by decide)).trans <| (W5_in m c 0 rfl).trans <| (W4_of_ne m c _ (by decide)).trans <|
    (W3_of_ne m c _ (by decide)).trans <| (W2_of_ne m c _ (by decide)).trans <| (W1_of_ne m c _ (by decide))

theorem W9_main_arg1 (c : Dev nD) : W9 m c (Proc.devRef .tc main_arg1) = m ((c : Thread nD τ).loc main_arg1) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_of_ne m c _ (by decide)).trans <| (W1_in m c 0 rfl)

theorem W9_main_arg2 (c : Dev nD) : W9 m c (Proc.devRef .tc main_arg2) = m ((c : Thread nD τ).loc main_arg2) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_of_ne m c _ (by decide)).trans <| (W1_in m c 1 rfl)

theorem W9_main_arg3 (c : Dev nD) : W9 m c (Proc.devRef .tc main_arg3) = m ((c : Thread nD τ).loc main_arg3) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_in m c 0 rfl).trans <| (W1_of_ne m c _ (by decide))

theorem W9_main_arg4 (c : Dev nD) : W9 m c (Proc.devRef .tc main_arg4) = m ((c : Thread nD τ).loc main_arg4) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_in m c 1 rfl).trans <| (W1_of_ne m c _ (by decide))

theorem W9_main_arg5 (c : Dev nD) : W9 m c (Proc.devRef .tc main_arg5) = m ((c : Thread nD τ).loc main_arg5) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_in m c 0 rfl).trans <| (W2_of_ne m c _ (by decide)).trans <| (W1_of_ne m c _ (by decide))

theorem W9_main_arg6 (c : Dev nD) : W9 m c (Proc.devRef .tc main_arg6) = m ((c : Thread nD τ).loc main_arg6) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_in m c 1 rfl).trans <| (W2_of_ne m c _ (by decide)).trans <| (W1_of_ne m c _ (by decide))

theorem W9_main_arg7 (c : Dev nD) : W9 m c (Proc.devRef .tc main_arg7) = m ((c : Thread nD τ).loc main_arg7) :=
  (W9_of_ne m c _ (by decide)).trans <| (W8_of_ne m c _ (by decide)).trans <| (W7_of_ne m c _ (by decide)).trans <|
    (W6_of_ne m c _ (by decide)).trans <| (W5_of_ne m c _ (by decide)).trans <| (W4_in m c 0 rfl).trans <|
    (W3_of_ne m c _ (by decide)).trans <| (W2_of_ne m c _ (by decide)).trans <| (W1_of_ne m c _ (by decide))

theorem W9_main_arg8 (c : Dev nD) : W9 m c (Proc.devRef .tc main_arg8) = m ((c : Thread nD τ).loc main_arg8) :=
  (W9_of_ne m c _ (by decide)).trans <| (W8_of_ne m c _ (by decide)).trans <| (W7_of_ne m c _ (by decide)).trans <|
    (W6_of_ne m c _ (by decide)).trans <| (W5_of_ne m c _ (by decide)).trans <| (W4_in m c 1 rfl).trans <|
    (W3_of_ne m c _ (by decide)).trans <| (W2_of_ne m c _ (by decide)).trans <| (W1_of_ne m c _ (by decide))

abbrev admH : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
  | ⟨5, _⟩ => fun c => dat5 (V5 m) c
  | ⟨6, _⟩ => fun c => dat6 (V6 m) c
  | ⟨7, _⟩ => fun c => dat7 (V7 m) c
  | ⟨8, _⟩ => fun c => dat8 (V8 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W9 m c) ∗ ∃ r, prngReg c r)

set_option backward.isDefEq.respectTransparency.types false in
/-- A region as a segment: its arrays are split out of the buffers held at `Win` and put back at `Wout`; nothing is owed. -/
def regOf (p : Fin 9) (lf : Pipeline.LaunchFacts (nD := nD) (τ := τ) cfgs p) (Win Wout : Dev nD → Valuation τ sig (Elt F))
    (hbody : ∀ c, BodyObligation (pdats m p c) (defs₀ (F := F)) 𝒱H () Set.univ)
    (hq : ∀ c w, (pdats m p c).q w = fullShare) (howed : ∀ c t, (pdats m p c).owed t = 0)
    (hrec : ∀ c x, x ∈ (pdats m p c).recorded 0)
    (hA : ∀ c w, (pdats m p c).A w = Win c (Proc.devRef .tc (Pipeline.arrRef (Pipeline.pin (pcfgs (F := F)) admH p).spec w)))
    (hF : ∀ c w, Wout c (Proc.devRef .tc (Pipeline.arrRef (Pipeline.pin (pcfgs (F := F)) admH p).spec w))
      = (pdats m p c).arrAt w (Pipeline.pin (pcfgs (F := F)) admH p).N)
    (hne : ∀ c (b : Ref sig .tc), (∀ w, Pipeline.arrRef (Pipeline.pin (pcfgs (F := F)) admH p).spec w ≠ b) →
      Wout c (Proc.devRef .tc b) = Win c (Proc.devRef .tc b))
    (hΦin : ∀ c, (Pipeline.ΦA (Pipeline.pin (pcfgs (F := F)) admH p).spec c : sProp 𝕄) ⊢ (pdats m p c).Φ 0)
    (hΦout : ∀ c, (pdats m p c).Φ (Fin.last _) ⊢ (Pipeline.ΦA (Pipeline.pin (pcfgs (F := F)) admH p).spec c : sProp 𝕄)) :
    Pipeline.RegionSeg (pcfgs (F := F)) admH (pdats m) () defs₀ 𝒱H LH lvH p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ LH lvH p howed
  pre c := iprop(StableHlo.held (c : Thread nD τ) (Pipeline.ucRefs τ sig) (Win c) ∗ RH c)
  post c := iprop(StableHlo.held (c : Thread nD τ) (Pipeline.ucRefs τ sig) (Wout c) ∗ RH c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admH p).spec c
    (fun b => Win c b)
  hentry c := by
    rw [Pipeline.ownSems0_none]
    have hsplit := Pipeline.arrays_of_unscopedBufs (p := p) (pcfgs (F := F)) admH (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c _)
      iexact HO
    isplitl [Hp]; · iexact Hp
    iexact Hrest
  hin c :=
    (show iprop((∃ r, prngReg c r) ∗ Pipeline.prefHeld (pcfgs (F := F) p).pre c (fun _ => fullShare) (admH (F := F) p).1
          ∗ Pipeline.scopedRest (Pipeline.pin (pcfgs (F := F)) admH p).spec c)
        ⊢ (Pipeline.ΦA (Pipeline.pin (pcfgs (F := F)) admH p).spec c : sProp 𝕄) from by
      unfold Pipeline.ΦA
      iintro ⟨Hp, -, Hr⟩
      isplitl [Hr]; · iexact Hr
      iexact Hp).trans (hΦin c)
  hout c := by
    rw [Pipeline.ownSems0_none]
    exact (hΦout c).trans (by
      unfold Pipeline.ΦA
      iintro ⟨Hr, Hp⟩
      isplitl [Hp]; · iexact Hp
      isplitr; · iempintro
      iexact Hr)
  hexit c := by
    have hjoin := Pipeline.unscopedBufs_of_arrays (p := p) (pcfgs (F := F)) admH (Ix := Unit) (Name := ℕ) (U := UR sig nD τ) (Lvl := ℕ)
      lf.win lf.arr_whole c (pdats m) ((pdats m p c).share_full (hq c))
      (fun b => Win c b) (fun b => Wout c b) ((pdats m p c).arrAt · _) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
abbrev segsH : List (Pipeline.Seg (pcfgs (F := F)) admH (pdats m) () defs₀ 𝒱H LH lvH) :=
  [ .region (regOf m 0 launch0 (W0 m) (W1 m) (body_obligation0 (V0 m)) (share0 (V0 m)) (owed0 (V0 m)) (fun _ _ => trivial) (A_eq0 (V0 m))
      (W1_arr m) (W1_of_ne m) (hin0 (V0 m)) (hout0 (V0 m))),
    .region (regOf m 1 launch1 (W1 m) (W2 m) (body_obligation1 (V1 m)) (share1 (V1 m)) (owed1 (V1 m)) (fun _ _ => trivial) (A_eq1 (V1 m))
      (W2_arr m) (W2_of_ne m) (hin1 (V1 m)) (hout1 (V1 m))),
    .region (regOf m 2 launch2 (W2 m) (W3 m) (body_obligation2 (V2 m)) (share2 (V2 m)) (owed2 (V2 m)) (fun _ _ => trivial) (A_eq2 (V2 m))
      (W3_arr m) (W3_of_ne m) (hin2 (V2 m)) (hout2 (V2 m))),
    .region (regOf m 3 launch3 (W3 m) (W4 m) (body_obligation3 (V3 m)) (share3 (V3 m)) (owed3 (V3 m)) (fun _ _ => trivial) (A_eq3 (V3 m))
      (W4_arr m) (W4_of_ne m) (hin3 (V3 m)) (hout3 (V3 m))),
    .region (regOf m 4 launch4 (W4 m) (W5 m) (body_obligation4 (V4 m)) (share4 (V4 m)) (owed4 (V4 m)) (fun _ _ => trivial) (A_eq4 (V4 m))
      (W5_arr m) (W5_of_ne m) (hin4 (V4 m)) (hout4 (V4 m))),
    .region (regOf m 5 launch5 (W5 m) (W6 m) (body_obligation5 (V5 m)) (share5 (V5 m)) (owed5 (V5 m)) (fun _ _ => trivial) (A_eq5 (V5 m))
      (W6_arr m) (W6_of_ne m) (hin5 (V5 m)) (hout5 (V5 m))),
    .region (regOf m 6 launch6 (W6 m) (W7 m) (body_obligation6 (V6 m)) (share6 (V6 m)) (owed6 (V6 m)) (fun _ _ => trivial) (A_eq6 (V6 m))
      (W7_arr m) (W7_of_ne m) (hin6 (V6 m)) (hout6 (V6 m))),
    .region (regOf m 7 launch7 (W7 m) (W8 m) (body_obligation7 (V7 m)) (share7 (V7 m)) (owed7 (V7 m)) (fun _ _ => trivial) (A_eq7 (V7 m))
      (W8_arr m) (W8_of_ne m) (hin7 (V7 m)) (hout7 (V7 m))),
    .region (regOf m 8 launch8 (W8 m) (W9 m) (body_obligation8 (V8 m)) (share8 (V8 m)) (owed8 (V8 m)) (fun _ _ => trivial) (A_eq8 (V8 m))
      (W9_arr m) (W9_of_ne m) (hin8 (V8 m)) (hout8 (V8 m))) ]
theorem main_runH (c : Dev nD) : main (F := F) c = Pipeline.Seg.run (segsH m) := (main_chain c).trans (by chain_rfl)

set_option backward.isDefEq.respectTransparency.types false in
/-- Every weakly fair execution of @main ends with the result array at the last contents and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v8) = W9 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v8 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c),
       (h c _ (mem_uc main_arg4 (by decide))).trans (W9_main_arg4 m c),
       (h c _ (mem_uc main_arg5 (by decide))).trans (W9_main_arg5 m c),
       (h c _ (mem_uc main_arg6 (by decide))).trans (W9_main_arg6 m c),
       (h c _ (mem_uc main_arg7 (by decide))).trans (W9_main_arg7 m c),
       (h c _ (mem_uc main_arg8 (by decide))).trans (W9_main_arg8 m c)⟩)

end Cert.Kernel.Hand

end
-- ==== Proof.KI.Reg1.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev wholeK1 : Rect S1024x128 := Rect.unit (s := S1024x128) ![0, 0] S1024x128.size inb_S1024x128_S1024x128_0_0
abbrev wholeVt1 : Rect S128x1024 := Rect.unit (s := S128x1024) ![0, 0] S128x1024.size inb_S128x1024_S128x1024_0_0
abbrev wholeW1 : Rect S1024x1024 := Rect.unit (s := S1024x1024) ![0, 0] S1024x1024.size inb_S1024x1024_S1024x1024_0_0

def product1 (kb : Vec F S1024x128 .f32) (vtb : Vec F S128x1024 .f32) : Vec F S1024x1024 .bf16 :=
  View.canon [⟨wholeW1, k1_pay1 (View.ld kb wholeK1) (View.ld vtb wholeVt1)⟩]

theorem product1_covers (p : Vec F S1024x1024 .bf16) (y : S1024x1024.Idx) :
    ∃ pc ∈ ([⟨wholeW1, p⟩] : List (View.Piece (Elt F) S1024x1024 .bf16)), y ∈ pc.1.set :=
  View.cover_of_tiled [⟨wholeW1, p⟩] S1024x1024.size (by rfl) y

set_option maxHeartbeats 1000000 in
theorem form_w_triple1 (c : Dev nD) (E : Set ℕ) (i : grid1.Coords)
    (bufK : Memref sig .tc .vmem S1024x128 .f32) (hK : bufK.IsWhole)
    (bufVt : Memref sig .tc .vmem S128x1024 .f32) (hVt : bufVt.IsWhole)
    (bufW : Memref sig .tc .vmem S1024x1024 .bf16) (hW : bufW.IsWhole)
    (kb : Vec F S1024x128 .f32) (vtb : Vec F S128x1024 .f32) (K : PUnit → sProp 𝕄) :
    iprop(owns (c : Thread nD τ) bufK fullShare kb ∗ owns (c : Thread nD τ) bufVt fullShare vtb
        ∗ (∃ d, owns (c : Thread nD τ) bufW fullShare d)
        ∗ (iprop(owns (c : Thread nD τ) bufK fullShare kb ∗ owns (c : Thread nD τ) bufVt fullShare vtb
            ∗ owns (c : Thread nD τ) bufW fullShare (product1 kb vtb)) -∗ K ⟨⟩))
      ⊢ wp frame (wpE (defs₀ (F := F)) Variants.none c none) E (cc1__form_w_kernel i bufK hK bufVt hVt bufW hW) K := by
  simp only [cc1__form_w_kernel_eq_skeleton]; unfold cc1__form_w_kernel_skel
  unfold owns
  iintro ⟨⟨%fK, %hfK, HK⟩, ⟨%fVt, %hfVt, HVt⟩, ⟨%d, %fW, -, HW⟩, Hk⟩
  subst hfK; subst hfVt
  sl_exec
  sl_step
  iapply Hk
  isplitl [HK]
  · iexists fK; isplitr; · ipureintro; rfl
    iexact HK
  isplitl [HVt]
  · iexists fVt; isplitr; · ipureintro; rfl
    iexact HVt
  iexists _; isplitr
  swap; · iexact HW
  ipureintro
  exact View.read_writes_eq_canon _ _ _ (product1_covers _)

def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => product1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).q w = fullShare := by
  dsimp only [dat1]

theorem owed1 (c : Dev nD) (t : Fin (cfg1.N + 1)) : (dat1 V c).owed t = 0 := by
  dsimp only [dat1]

theorem after1_K (c : Dev nD) (t : Fin cfg1.N) : (dat1 V c).after 0 t = iblk1 V c 0 t := by dsimp only [dat1]
theorem after1_Vt (c : Dev nD) (t : Fin cfg1.N) : (dat1 V c).after 1 t = iblk1 V c 1 t := by dsimp only [dat1]
theorem after1_W (c : Dev nD) (t : Fin cfg1.N) :
    (dat1 V c).after 2 t = product1 (iblk1 V c 0 t) (iblk1 V c 1 t) := by dsimp only [dat1]

theorem before1_K (c : Dev nD) (t : Fin cfg1.N) (d) : (dat1 V c).before 0 t d = iblk1 V c 0 t :=
  ((dat1 V c).before_in_eq_fetched 0 rfl (fun _ => rfl) (fun _ _ _ => rfl)
      (fun t => by rw [after1_K]; unfold Dat.blockOf iblk1; rw [A_eq1]; try rfl) t d).trans
    (by unfold Dat.fetched Dat.blockOf iblk1; rw [A_eq1]; try rfl)

theorem before1_Vt (c : Dev nD) (t : Fin cfg1.N) (d) : (dat1 V c).before 1 t d = iblk1 V c 1 t :=
  ((dat1 V c).before_in_eq_fetched 1 rfl (fun _ => rfl) (fun _ _ _ => rfl)
      (fun t => by rw [after1_Vt]; unfold Dat.blockOf iblk1; rw [A_eq1]; try rfl) t d).trans
    (by unfold Dat.fetched Dat.blockOf iblk1; rw [A_eq1]; try rfl)

def bodyEntry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyExit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body_triple1 (c : Dev nD) (t : Fin cfg1.N) :
    bodyEntry1 V c t ⊢ wp frame (wpE (defs₀ (F := F)) Variants.none c none) Set.univ (bodyAt1 t) (fun _ => bodyExit1 V c t) := by
  unfold bodyEntry1 bodyExit1 bodyAt1
  simp only [before1_K, before1_Vt]
  rw [show (dat1 V c).Φ t.succ = (dat1 V c).Φ t.castSucc from rfl,
    show (dat1 V c).owesAt () t.succ = (dat1 V c).owesAt () t.castSucc from rfl,
    after1_K, after1_Vt, after1_W]
  iintro ⟨HΦ, Ho, ⟨%d0, HK⟩, ⟨%d1, HVt⟩, ⟨%d2, HW⟩⟩
  iapply (form_w_triple1 c Set.univ _ _ _ _ _ _ _ (iblk1 V c 0 t) (iblk1 V c 1 t) _)
  iframe HK HVt
  isplitl [HW]; · iexists _; iexact HW
  iintro ⟨HK, HVt, HW⟩
  iframe

theorem body_obligation1 (c : Dev nD) :
    BodyObligation (dat1 (F := F) V c) (defs₀ (F := F)) Variants.none () Set.univ := fun t => by
  rw [bigSep_W1, bigSep_W1]
  exact body_triple1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.KernelIdeal.Hand

end
-- ==== Proof.KI.Reg0.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import proofs.«134585_j83811991814293_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => product1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := by
  dsimp only [dat0]

theorem owed0 (c : Dev nD) (t : Fin (cfg0.N + 1)) : (dat0 V c).owed t = 0 := by
  dsimp only [dat0]

theorem after0_K (c : Dev nD) (t : Fin cfg0.N) : (dat0 V c).after 0 t = iblk0 V c 0 t := by dsimp only [dat0]
theorem after0_Vt (c : Dev nD) (t : Fin cfg0.N) : (dat0 V c).after 1 t = iblk0 V c 1 t := by dsimp only [dat0]
theorem after0_W (c : Dev nD) (t : Fin cfg0.N) :
    (dat0 V c).after 2 t = product1 (iblk0 V c 0 t) (iblk0 V c 1 t) := by dsimp only [dat0]

theorem before0_K (c : Dev nD) (t : Fin cfg0.N) (d) : (dat0 V c).before 0 t d = iblk0 V c 0 t :=
  ((dat0 V c).before_in_eq_fetched 0 rfl (fun _ => rfl) (fun _ _ _ => rfl)
      (fun t => by rw [after0_K]; unfold Dat.blockOf iblk0; rw [A_eq0]; try rfl) t d).trans
    (by unfold Dat.fetched Dat.blockOf iblk0; rw [A_eq0]; try rfl)

theorem before0_Vt (c : Dev nD) (t : Fin cfg0.N) (d) : (dat0 V c).before 1 t d = iblk0 V c 1 t :=
  ((dat0 V c).before_in_eq_fetched 1 rfl (fun _ => rfl) (fun _ _ _ => rfl)
      (fun t => by rw [after0_Vt]; unfold Dat.blockOf iblk0; rw [A_eq0]; try rfl) t d).trans
    (by unfold Dat.fetched Dat.blockOf iblk0; rw [A_eq0]; try rfl)

def bodyEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body is region 1's (it does not read the grid point), so region 1's run of it serves here. -/
theorem body_triple0 (c : Dev nD) (t : Fin cfg0.N) :
    bodyEntry0 V c t ⊢ wp frame (wpE (defs₀ (F := F)) Variants.none c none) Set.univ (bodyAt0 t) (fun _ => bodyExit0 V c t) := by
  unfold bodyEntry0 bodyExit0 bodyAt0
  rw [show cc0__form_w_kernel (F := F) (grid0.coords t) = cc1__form_w_kernel (F := F) (grid1.coords ⟨0, by decide⟩) from rfl]
  simp only [before0_K, before0_Vt]
  rw [show (dat0 V c).Φ t.succ = (dat0 V c).Φ t.castSucc from rfl,
    show (dat0 V c).owesAt () t.succ = (dat0 V c).owesAt () t.castSucc from rfl,
    after0_K, after0_Vt, after0_W]
  iintro ⟨HΦ, Ho, ⟨%d0, HK⟩, ⟨%d1, HVt⟩, ⟨%d2, HW⟩⟩
  iapply (form_w_triple1 c Set.univ _ _ _ _ _ _ _ (iblk0 V c 0 t) (iblk0 V c 1 t) _)
  iframe HK HVt
  isplitl [HW]; · iexists _; iexact HW
  iintro ⟨HK, HVt, HW⟩
  iframe

theorem body_obligation0 (c : Dev nD) :
    BodyObligation (dat0 (F := F) V c) (defs₀ (F := F)) Variants.none () Set.univ := fun t => by
  rw [bigSep_W0, bigSep_W0]
  exact body_triple0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.KI.Reg2.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import proofs.«134585_j83811991814293_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => product1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).q w = fullShare := by
  dsimp only [dat2]

theorem owed2 (c : Dev nD) (t : Fin (cfg2.N + 1)) : (dat2 V c).owed t = 0 := by
  dsimp only [dat2]

theorem after2_K (c : Dev nD) (t : Fin cfg2.N) : (dat2 V c).after 0 t = iblk2 V c 0 t := by dsimp only [dat2]
theorem after2_Vt (c : Dev nD) (t : Fin cfg2.N) : (dat2 V c).after 1 t = iblk2 V c 1 t := by dsimp only [dat2]
theorem after2_W (c : Dev nD) (t : Fin cfg2.N) :
    (dat2 V c).after 2 t = product1 (iblk2 V c 0 t) (iblk2 V c 1 t) := by dsimp only [dat2]

theorem before2_K (c : Dev nD) (t : Fin cfg2.N) (d) : (dat2 V c).before 0 t d = iblk2 V c 0 t :=
  ((dat2 V c).before_in_eq_fetched 0 rfl (fun _ => rfl) (fun _ _ _ => rfl)
      (fun t => by rw [after2_K]; unfold Dat.blockOf iblk2; rw [A_eq2]; try rfl) t d).trans
    (by unfold Dat.fetched Dat.blockOf iblk2; rw [A_eq2]; try rfl)

theorem before2_Vt (c : Dev nD) (t : Fin cfg2.N) (d) : (dat2 V c).before 1 t d = iblk2 V c 1 t :=
  ((dat2 V c).before_in_eq_fetched 1 rfl (fun _ => rfl) (fun _ _ _ => rfl)
      (fun t => by rw [after2_Vt]; unfold Dat.blockOf iblk2; rw [A_eq2]; try rfl) t d).trans
    (by unfold Dat.fetched Dat.blockOf iblk2; rw [A_eq2]; try rfl)

def bodyEntry2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyExit2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body is region 1's (it does not read the grid point), so region 1's run of it serves here. -/
theorem body_triple2 (c : Dev nD) (t : Fin cfg2.N) :
    bodyEntry2 V c t ⊢ wp frame (wpE (defs₀ (F := F)) Variants.none c none) Set.univ (bodyAt2 t) (fun _ => bodyExit2 V c t) := by
  unfold bodyEntry2 bodyExit2 bodyAt2
  rw [show cc2__form_w_kernel (F := F) = cc1__form_w_kernel (F := F) from rfl]
  simp only [before2_K, before2_Vt]
  rw [show (dat2 V c).Φ t.succ = (dat2 V c).Φ t.castSucc from rfl,
    show (dat2 V c).owesAt () t.succ = (dat2 V c).owesAt () t.castSucc from rfl,
    after2_K, after2_Vt, after2_W]
  iintro ⟨HΦ, Ho, ⟨%d0, HK⟩, ⟨%d1, HVt⟩, ⟨%d2, HW⟩⟩
  iapply (form_w_triple1 c Set.univ _ _ _ _ _ _ _ (iblk2 V c 0 t) (iblk2 V c 1 t) _)
  iframe HK HVt
  isplitl [HW]; · iexists _; iexact HW
  iintro ⟨HK, HVt, HW⟩
  iframe

theorem body_obligation2 (c : Dev nD) :
    BodyObligation (dat2 (F := F) V c) (defs₀ (F := F)) Variants.none () Set.univ := fun t => by
  rw [bigSep_W2, bigSep_W2]
  exact body_triple2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.Hand

end
-- ==== Proof.KI.Reg3.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev wholeK3 : Rect S1024x128 := Rect.unit (s := S1024x128) ![0, 0] S1024x128.size inb_S1024x128_S1024x128_0_0
abbrev wholeVt3 : Rect S128x1000 := Rect.unit (s := S128x1000) ![0, 0] S128x1000.size inb_S128x1000_S128x1000_0_0
abbrev wholeW3 : Rect S1024x1000 := Rect.unit (s := S1024x1000) ![0, 0] S1024x1000.size inb_S1024x1000_S1024x1000_0_0

def product3 (kb : Vec F S1024x128 .f32) (vtb : Vec F S128x1000 .f32) : Vec F S1024x1000 .bf16 :=
  View.canon [⟨wholeW3, k3_pay1 (View.ld kb wholeK3) (View.ld vtb wholeVt3)⟩]

theorem product3_covers (p : Vec F S1024x1000 .bf16) (y : S1024x1000.Idx) :
    ∃ pc ∈ ([⟨wholeW3, p⟩] : List (View.Piece (Elt F) S1024x1000 .bf16)), y ∈ pc.1.set :=
  View.cover_of_tiled [⟨wholeW3, p⟩] S1024x1000.size (by rfl) y

set_option maxHeartbeats 1000000 in
theorem form_w_triple3 (c : Dev nD) (E : Set ℕ) (i : grid3.Coords)
    (bufK : Memref sig .tc .vmem S1024x128 .f32) (hK : bufK.IsWhole)
    (bufVt : Memref sig .tc .vmem S128x1000 .f32) (hVt : bufVt.IsWhole)
    (bufW : Memref sig .tc .vmem S1024x1000 .bf16) (hW : bufW.IsWhole)
    (kb : Vec F S1024x128 .f32) (vtb : Vec F S128x1000 .f32) (K : PUnit → sProp 𝕄) :
    iprop(owns (c : Thread nD τ) bufK fullShare kb ∗ owns (c : Thread nD τ) bufVt fullShare vtb
        ∗ (∃ d, owns (c : Thread nD τ) bufW fullShare d)
        ∗ (iprop(owns (c : Thread nD τ) bufK fullShare kb ∗ owns (c : Thread nD τ) bufVt fullShare vtb
            ∗ owns (c : Thread nD τ) bufW fullShare (product3 kb vtb)) -∗ K ⟨⟩))
      ⊢ wp frame (wpE (defs₀ (F := F)) Variants.none c none) E (cc3__form_w_kernel i bufK hK bufVt hVt bufW hW) K := by
  simp only [cc3__form_w_kernel_eq_skeleton]; unfold cc3__form_w_kernel_skel
  unfold owns
  iintro ⟨⟨%fK, %hfK, HK⟩, ⟨%fVt, %hfVt, HVt⟩, ⟨%d, %fW, -, HW⟩, Hk⟩
  subst hfK; subst hfVt
  sl_exec
  sl_step
  iapply Hk
  isplitl [HK]
  · iexists fK; isplitr; · ipureintro; rfl
    iexact HK
  isplitl [HVt]
  · iexists fVt; isplitr; · ipureintro; rfl
    iexact HVt
  iexists _; isplitr
  swap; · iexact HW
  ipureintro
  exact View.read_writes_eq_canon _ _ _ (product3_covers _)

def dat3 (V : (c : Dev nD) → (b : Ref sig .tc) → Buf (Elt F) ((c : Thread nD τ).loc b)) (c : Dev nD) :
    Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => product3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem share3 (c : Dev nD) (w : Fin cfg3.W) : (dat3 V c).q w = fullShare := by
  dsimp only [dat3]

theorem owed3 (c : Dev nD) (t : Fin (cfg3.N + 1)) : (dat3 V c).owed t = 0 := by
  dsimp only [dat3]

theorem after3_K (c : Dev nD) (t : Fin cfg3.N) : (dat3 V c).after 0 t = iblk3 V c 0 t := by dsimp only [dat3]
theorem after3_Vt (c : Dev nD) (t : Fin cfg3.N) : (dat3 V c).after 1 t = iblk3 V c 1 t := by dsimp only [dat3]
theorem after3_W (c : Dev nD) (t : Fin cfg3.N) :
    (dat3 V c).after 2 t = product3 (iblk3 V c 0 t) (iblk3 V c 1 t) := by dsimp only [dat3]

theorem before3_K (c : Dev nD) (t : Fin cfg3.N) (d) : (dat3 V c).before 0 t d = iblk3 V c 0 t :=
  ((dat3 V c).before_in_eq_fetched 0 rfl (fun _ => rfl) (fun _ _ _ => rfl)
      (fun t => by rw [after3_K]; unfold Dat.blockOf iblk3; rw [A_eq3]; try rfl) t d).trans
    (by unfold Dat.fetched Dat.blockOf iblk3; rw [A_eq3]; try rfl)

theorem before3_Vt (c : Dev nD) (t : Fin cfg3.N) (d) : (dat3 V c).before 1 t d = iblk3 V c 1 t :=
  ((dat3 V c).before_in_eq_fetched 1 rfl (fun _ => rfl) (fun _ _ _ => rfl)
      (fun t => by rw [after3_Vt]; unfold Dat.blockOf iblk3; rw [A_eq3]; try rfl) t d).trans
    (by unfold Dat.fetched Dat.blockOf iblk3; rw [A_eq3]; try rfl)

def bodyEntry3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyExit3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body_triple3 (c : Dev nD) (t : Fin cfg3.N) :
    bodyEntry3 V c t ⊢ wp frame (wpE (defs₀ (F := F)) Variants.none c none) Set.univ (bodyAt3 t) (fun _ => bodyExit3 V c t) := by
  unfold bodyEntry3 bodyExit3 bodyAt3
  simp only [before3_K, before3_Vt]
  rw [show (dat3 V c).Φ t.succ = (dat3 V c).Φ t.castSucc from rfl,
    show (dat3 V c).owesAt () t.succ = (dat3 V c).owesAt () t.castSucc from rfl,
    after3_K, after3_Vt, after3_W]
  iintro ⟨HΦ, Ho, ⟨%d0, HK⟩, ⟨%d1, HVt⟩, ⟨%d2, HW⟩⟩
  iapply (form_w_triple3 c Set.univ _ _ _ _ _ _ _ (iblk3 V c 0 t) (iblk3 V c 1 t) _)
  iframe HK HVt
  isplitl [HW]; · iexists _; iexact HW
  iintro ⟨HK, HVt, HW⟩
  iframe

theorem body_obligation3 (c : Dev nD) :
    BodyObligation (dat3 (F := F) V c) (defs₀ (F := F)) Variants.none () Set.univ := fun t => by
  rw [bigSep_W3, bigSep_W3]
  exact body_triple3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.KernelIdeal.Hand

end
-- ==== Proof.KI.Reg4.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev isFirstK4 (i : grid4.Coords) : Prop :=
  (Scalar.cmpi .ne (Scalar.extui (Scalar.cmpi .eq (BitVec.ofNat 32 (i 2).val) 0#32)) 0#32) = 1#1

abbrev isLastK4 (i : grid4.Coords) : Prop := k4_cond2 i = 1#1

theorem isFirstK4_all : ∀ t : Fin cfg4.N, isFirstK4 (grid4.coords t) :=
  (by decide +kernel : ∀ t : Fin grid4.N, isFirstK4 (grid4.coords t))

theorem isLastK4_all : ∀ t : Fin cfg4.N, isLastK4 (grid4.coords t) :=
  (by decide +kernel : ∀ t : Fin grid4.N, isLastK4 (grid4.coords t))

theorem outLive4 : ∀ t : Fin cfg4.N, cfg4.idle 2 (grid4.coords t) = false :=
  (by decide +kernel : ∀ t : Fin grid4.N, idle4 2 (grid4.coords t) = false)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOff4 : (![0, 0] : Fin 2 → Nat) = fun _ => 0 := funext fun a => by fin_cases a <;> rfl

abbrev blockRect4 : Rect S1024x1024 := Rect.unit (s := S1024x1024) ![0, 0] S1024x1024.size inb_S1024x1024_S1024x1024_0_0

def out4_2 (x : Vec F S1024x1024 .f32) (w : Vec F S1024x1024 .bf16) : Vec F S1024x1024 .bf16 :=
  View.canon [⟨blockRect4, k4_pay3 (k4_pay2 x w (k4_pay1 (F := F)))⟩]

theorem blockCover4 {e : EltTy} (p : Vec F S1024x1024 e) (y : S1024x1024.Idx) :
    ∃ pc ∈ ([⟨blockRect4, p⟩] : List (View.Piece (Elt F) S1024x1024 e)), y ∈ pc.1.set :=
  ⟨_, List.mem_singleton_self _, View.mem_set_unit_zero zeroOff4 inb_S1024x1024_S1024x1024_0_0 y⟩

theorem stored4 {sg : RefSig} {κ : Kind} {sp : Space} (vs : View sg κ sp S1024x1024 .f32)
    (x : Vec F S1024x1024 .f32) (w : Vec F S1024x1024 .bf16) :
    (View.canon [⟨blockRect4, k4_pay3 (vs.readCov
        [⟨blockRect4, k4_pay2 (View.ld x blockRect4) (View.ld w blockRect4)
            (vs.readCov [⟨blockRect4, k4_pay1 (F := F)⟩] blockRect4.toLoadRect)⟩,
          ⟨blockRect4, k4_pay1 (F := F)⟩] blockRect4.toLoadRect)⟩] : Vec F S1024x1024 .bf16) = out4_2 x w := by
  rw [View.readCov_cons_toLoadRect, View.readCov_cons_toLoadRect, View.ld_unit_zero zeroOff4, View.ld_unit_zero zeroOff4]
  rfl

set_option maxHeartbeats 1000000 in
theorem sound_kernel4 (c : Dev nD) (E : Set ℕ) (i : grid4.Coords) (hfirst : isFirstK4 i) (hlast : isLastK4 i)
    (arg3 : Memref sig .tc .vmem S1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (x : Vec F S1024x1024 .f32) (w : Vec F S1024x1024 .bf16) (K : PUnit → sProp 𝕄) :
    iprop(owns (c : Thread nD τ) arg3 fullShare x ∗ owns (c : Thread nD τ) arg4 fullShare w
        ∗ (∃ d, owns (c : Thread nD τ) arg5 fullShare d) ∗ (∃ d, owns (c : Thread nD τ) arg6 fullShare d)
        ∗ (iprop(owns (c : Thread nD τ) arg3 fullShare x ∗ owns (c : Thread nD τ) arg4 fullShare w
            ∗ owns (c : Thread nD τ) arg5 fullShare (out4_2 x w) ∗ (∃ d, owns (c : Thread nD τ) arg6 fullShare d)) -∗ K ⟨⟩))
      ⊢ wp frame (wpE (defs₀ (F := F)) Variants.none c none) E (cc4__mm_kernel i arg3 harg3 arg4 harg4 arg5 harg5 arg6 harg6) K := by
  simp only [cc4__mm_kernel_eq_skeleton]; unfold cc4__mm_kernel_skel
  unfold owns
  iintro ⟨⟨%fx, %hfx, Hx⟩, ⟨%fw, %hfw, Hw⟩, ⟨%dz, %fz, -, Hz⟩, ⟨%da, %fa, -, Ha⟩, Hk⟩
  subst hfx; subst hfw
  sl_exec (disch := first | exact hfirst | exact hlast)
  sl_step
  iapply Hk
  isplitl [Hx]
  · iexists fx; isplitr; · ipureintro; rfl
    iexact Hx
  isplitl [Hw]
  · iexists fw; isplitr; · ipureintro; rfl
    iexact Hw
  isplitl [Hz]
  · iexists _; isplitr
    swap; · iexact Hz
    ipureintro
    refine (View.read_writes_eq_canon _ _ _ (blockCover4 _)).trans ?_
    sl_unfold_words
    simp only [View.readAt_eq_ld]
    exact stored4 _ _ _
  iexists _; iexists _; isplitr
  swap; · iexact Ha
  ipureintro; rfl

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).q w = fullShare := by
  dsimp only [dat4]

theorem owed4 (c : Dev nD) (t : Fin (cfg4.N + 1)) : (dat4 V c).owed t = 0 := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

abbrev accRef4 : Memref sig .tc .vmem S1024x1024 .f32 := Memref.whole cc4_scratch0

theorem PhiA4_eq (c : Dev nD) :
    (Pipeline.ΦA spec4 c : sProp 𝕄)
      = iprop(iprop(iprop(∃ d, owns (c : Thread nD τ) accRef4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accRef4, owns_whole]
  rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (st4_0 t) fullShare ((dat4 V c).after 0 t) from rfl, after4_0]
  rw [show (dat4 V c).leavesExact 1 t = owns (c : Thread nD τ) (st4_1 t) fullShare ((dat4 V c).after 1 t) from rfl, after4_1]
  rw [show (dat4 V c).leavesExact 2 t = owns (c : Thread nD τ) (st4_2 t) fullShare ((dat4 V c).after 2 t) from by
    unfold Dat.leavesExact; rw [outLive4 t], after4_2]
  rw [show (dat4 V c).Φ t.castSucc = Pipeline.ΦA spec4 c from rfl, PhiA4_eq]
  iintro ⟨⟨⟨Hacc, Hrest⟩, Hg⟩, Ho, ⟨%d0, Hx⟩, ⟨%d1, Hw⟩, ⟨%d2, Hz⟩⟩
  iapply (sound_kernel4 c Set.univ (grid4.coords t) (isFirstK4_all t) (isLastK4_all t) _ _ _ _ _ _ _ _
    (iblk4 V c 0 t) (iblk4 V c 1 t) _)
  isplitl [Hx]; · iexact Hx
  isplitl [Hw]; · iexact Hw
  isplitl [Hz]; · iexists _; iexact Hz
  isplitl [Hacc]; · iexact Hacc
  iintro ⟨Hx, Hw, Hz, Hacc⟩
  isplitl [Hacc Hrest Hg]
  · isplitl [Hacc Hrest]
    · isplitl [Hacc]; · iexact Hacc
      iexact Hrest
    iexact Hg
  isplitl [Ho]; · iexact Ho
  isplitl [Hx]; · iexact Hx
  isplitl [Hw]; · iexact Hw
  iexact Hz

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

end Cert.KernelIdeal.Hand

end
-- ==== Proof.KI.Reg5.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

abbrev ms5_0 (t : Fin cfg5.N) : Memref sig .tc .vmem S1024x1024 .bf16 := win5_0.stage (cfg5.slots t 0)
abbrev ms5_1 (t : Fin cfg5.N) : Memref sig .tc .vmem S1024x1024 .bf16 := win5_1.stage (cfg5.slots t 1)
abbrev ms5_2 (t : Fin cfg5.N) : Memref sig .tc .vmem S1024x1024 .bf16 := win5_2.stage (cfg5.slots t 2)
abbrev scM5 : Memref sig .tc .vmem S1024x1024 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5 fullShare d)) ∗ rest5 (F := F) c) ∗ (∃ r, prngReg c r)) := by
  unfold Pipeline.ΦA; rw [scopedRest5_split]; simp only [scM5, owns_whole]; try rfl

theorem hz5 : (![0, 0] : Fin S1024x1024.rank → Nat) = fun _ => 0 := by
  funext a; match a with | ⟨0, _⟩ => rfl | ⟨1, _⟩ => rfl

set_option maxHeartbeats 1000000 in
theorem run5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : cond5_0 i) (hc1 : ¬cond5_1 i)
    (x0 x1 xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k5_pay2 x0 x1 (k5_pay1 (F := F)))) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, View.ld_unit_zero (S := S1024x1024) hz5, View.readCov_unit_zero (S := S1024x1024) _ hz5]

set_option maxHeartbeats 1000000 in
theorem run5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : ¬cond5_0 i) (hc1 : ¬cond5_1 i)
    (x0 x1 xi : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k5_pay2 x0 x1 xs)) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, harg6.read_unread, View.ld_unit_zero (S := S1024x1024) hz5]

set_option maxHeartbeats 1000000 in
theorem run5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (hc0 : ¬cond5_0 i) (hc1 : cond5_1 i)
    (x0 x1 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k5_pay3 (k5_pay2 x0 x1 xs)) ∗ owns (c : Thread nD τ) arg6 fullShare (k5_pay2 x0 x1 xs)) -∗ K ⟨⟩))
      ⊢ wp frame (wpE (defs₀ (F := F)) Variants.none c none) E (cc5__mm_kernel i arg3 harg3 arg4 harg4 arg5 harg5 arg6 harg6) K := by
  simp only [cc5__mm_kernel_eq_skeleton]; unfold cc5__mm_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.Mem.head _, View.mem_set_unit_zero hz5 inb_S1024x1024_S1024x1024_0_0 y⟩)]
    rw [View.canon_cons_unit_zero (S := S1024x1024) hz5]
    simp only [View.readAt_eq_ld, harg3.read_unread, harg4.read_unread, harg6.read_unread, View.ld_unit_zero (S := S1024x1024) hz5, View.readCov_unit_zero (S := S1024x1024) _ hz5]
  iexists _; isplitr
  swap; · iexact HS0
  ipureintro
  sl_unfold_words
  rw [View.read_writes_eq_canon _ _ _ (fun y => ⟨_, List.Mem.head _, View.mem_set_unit_zero hz5 inb_S1024x1024_S1024x1024_0_0 y⟩)]
  rw [View.canon_cons_unit_zero (S := S1024x1024) hz5]
  simp only [View.readAt_eq_ld, harg3.read_unread, harg4.read_unread, harg6.read_unread, View.ld_unit_zero (S := S1024x1024) hz5]

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev zblk5 (c : Dev nD) (t : Fin cfg5.N) : Vec F S1024x1024 .bf16 := iblk5 V c 0 t
abbrev wblk5 (c : Dev nD) (t : Fin cfg5.N) : Vec F S1024x1024 .bf16 := iblk5 V c 1 t

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

def accAt5 (c : Dev nD) : (n : ℕ) → n < cfg5.N → Vec F S1024x1024 .f32
  | 0, hn => k5_pay2 (zblk5 V c ⟨0, hn⟩) (wblk5 V c ⟨0, hn⟩) (k5_pay1 (F := F))
  | n + 1, hn =>
    if (n + 1) % 4 = 0 then k5_pay2 (zblk5 V c ⟨n + 1, hn⟩) (wblk5 V c ⟨n + 1, hn⟩) (k5_pay1 (F := F))
    else k5_pay2 (zblk5 V c ⟨n + 1, hn⟩) (wblk5 V c ⟨n + 1, hn⟩) (accAt5 c n (Nat.lt_of_succ_lt hn))

theorem accAt5_reset (c : Dev nD) (n : ℕ) (hn : n < cfg5.N) (h : n % 4 = 0) :
    accAt5 V c n hn = k5_pay2 (zblk5 V c ⟨n, hn⟩) (wblk5 V c ⟨n, hn⟩) (k5_pay1 (F := F)) := by
  cases n with
  | zero => rfl
  | succ n => exact if_pos h

theorem accAt5_step (c : Dev nD) (n : ℕ) (hn : n < cfg5.N) (h : ¬n % 4 = 0) :
    accAt5 V c n hn = k5_pay2 (zblk5 V c ⟨n, hn⟩) (wblk5 V c ⟨n, hn⟩) (accAt5 V c (n - 1) (Nat.lt_of_le_of_lt (Nat.sub_le _ _) hn)) := by
  cases n with
  | zero => exact absurd (Nat.zero_mod _) h
  | succ n => exact if_neg h

theorem accAt5_first (c : Dev nD) (t : Fin cfg5.N) (h : t.val % 4 = 0) :
    accAt5 V c t.val t.isLt = k5_pay2 (iblk5 V c 0 t) (iblk5 V c 1 t) k5_pay1 :=
  accAt5_reset V c t.val t.isLt h

theorem accAt5_next (c : Dev nD) (t : Fin cfg5.N) (h : t.val % 4 ≠ 0) :
    accAt5 V c t.val t.isLt = k5_pay2 (iblk5 V c 0 t) (iblk5 V c 1 t) (accAt5 V c (t.val - 1) (Nat.lt_of_le_of_lt (Nat.sub_le _ _) t.isLt)) :=
  accAt5_step V c t.val t.isLt h

def PhiS5 (c : Dev nD) : (n : ℕ) → n ≤ cfg5.N → sProp 𝕄
  | 0, _ => Pipeline.ΦA spec5 c
  | n + 1, hn => iprop(iprop(owns (c : Thread nD τ) scM5 fullShare (accAt5 V c n hn) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (accAt5 V c n hn) ∗ rest5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5 fullShare (accAt5 V c (n - 1) (by omega)) ∗ rest5 (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem share5 (c : Dev nD) (w : Fin cfg5.W) : (dat5 V c).q w = fullShare := rfl

theorem owed5 (c : Dev nD) (t : Fin (cfg5.N + 1)) : (dat5 V c).owed t = 0 := rfl

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  have hN : t.val < 128 := lt_of_lt_of_eq t.isLt (show cfg5.N = 128 from N_5)
  by_cases h0 : t.val % 4 = 0
  · have h1 : ¬t.val % 4 = 3 := by omega
    have hc0 : cond5_0 (grid5.coords t) := (hcond5_0 t).mpr h0
    have hc1 : ¬cond5_1 (grid5.coords t) := fun h => h1 ((hcond5_1 t).mp h)
    rw [Dat.leavesExact_idle (dat5 V c) 2 t (idleAt5_2 t hc1) (noFlush5_2 t hc1)]
    rw [accAt5_reset V c t.val t.isLt h0]
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩⟩
      iapply (run5_A c (grid5.coords t) _ _ _ _ _ _ _ _ hc0 hc1 (zblk5 V c t) (wblk5 V c t) ((dat5 V c).before 2 t d2) Set.univ _)
      iframe H0 H1 H2 HS0
      iintro ⟨H0, H1, H2, HS0⟩
      iframe
      iexists _; iexact H2
    · rw [PhiS5_castSucc V c t, PhiS5_pos V c _ _ hz]
      iintro ⟨⟨⟨HS0, Hr⟩, Hg⟩, Ho, ⟨%d0, H0⟩, ⟨%d1, H1⟩, ⟨%d2, H2⟩⟩
      iapply (run5_A c (grid5.coords t) _ _ _ _ _ _ _ _ hc0 hc1 (zblk5 V c t) (wblk5 V c t) ((dat5 V c).before 2 t d2) Set.univ _)
      isplitl [H0]; · iexact H0
      isplitl [H1]; · iexact H1
      isplitl [H2]; · iexact H2
      isplitl [HS0]; · iexists _; iexact HS0
      iintro ⟨H0, H1, H2, HS0⟩
      iframe
      iexists _; iexact H2
  · have hz : t.val ≠ 0 := fun h => h0 (by rw [h])
    have hc0 : ¬cond5_0 (grid5.coords t) := fun h => h0 ((hcond5_0 t).mp h)
    rw [accAt5_step V c t.val t.isLt h0]
    rw [PhiS5_castSucc V c t, PhiS5_pos V c _ _ hz]
    by_cases h1 : t.val % 4 = 3
    · have hc1 : cond5_1 (grid5.coords t) := (hcond5_1 t).mpr h1
      rw [show (dat5 V c).leavesExact 2 t = owns (c : Thread nD τ) (ms5_2 t) fullShare ((dat5 V c).after 2 t) from by
        unfold Dat.leavesExact; rw [liveAt5_2 t hc1], after5_2, accAt5_step V c t.val t.isLt h0]
      iintro ⟨⟨⟨HS0, Hr⟩, Hg⟩, Ho, ⟨%d0, H0⟩, ⟨%d1, H1⟩, ⟨%d2, H2⟩⟩
      iapply (run5_C c (grid5.coords t) _ _ _ _ _ _ _ _ hc0 hc1 (zblk5 V c t) (wblk5 V c t) _ Set.univ _)
      isplitl [H0]; · iexact H0
      isplitl [H1]; · iexact H1
      isplitl [H2]; · iexists _; iexact H2
      isplitl [HS0]; · iexact HS0
      iintro ⟨H0, H1, H2, HS0⟩
      iframe
    · have hc1 : ¬cond5_1 (grid5.coords t) := fun h => h1 ((hcond5_1 t).mp h)
      rw [Dat.leavesExact_idle (dat5 V c) 2 t (idleAt5_2 t hc1) (noFlush5_2 t hc1)]
      iintro ⟨⟨⟨HS0, Hr⟩, Hg⟩, Ho, ⟨%d0, H0⟩, ⟨%d1, H1⟩, ⟨%d2, H2⟩⟩
      iapply (run5_B c (grid5.coords t) _ _ _ _ _ _ _ _ hc0 hc1 (zblk5 V c t) (wblk5 V c t) ((dat5 V c).before 2 t d2) _ Set.univ _)
      iframe H0 H1 H2 HS0
      iintro ⟨H0, H1, H2, HS0⟩
      iframe
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]; · iexists _; iexact HS0
    iexact Hr
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

end Cert.KernelIdeal.Hand

end
-- ==== Proof.KI.Reg6.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import proofs.«134585_j83811991814293_1_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)

abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

abbrev ms6_0 (t : Fin cfg6.N) : Memref sig .tc .vmem S1024x1024 .bf16 := win6_0.stage (cfg6.slots t 0)
abbrev ms6_1 (t : Fin cfg6.N) : Memref sig .tc .vmem S1024x1024 .bf16 := win6_1.stage (cfg6.slots t 1)
abbrev ms6_2 (t : Fin cfg6.N) : Memref sig .tc .vmem S1024x1024 .bf16 := win6_2.stage (cfg6.slots t 2)
abbrev scM6 : Memref sig .tc .vmem S1024x1024 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop(iprop((∃ d, owns (c : Thread nD τ) scM6 fullShare d)) ∗ rest6 (F := F) c) ∗ (∃ r, prngReg c r)) := by
  unfold Pipeline.ΦA; rw [scopedRest6_split]; simp only [scM6, owns_whole]; try rfl

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev zblk6 (c : Dev nD) (t : Fin cfg6.N) : Vec F S1024x1024 .bf16 := iblk6 V c 0 t
abbrev wblk6 (c : Dev nD) (t : Fin cfg6.N) : Vec F S1024x1024 .bf16 := iblk6 V c 1 t

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

def accAt6 (c : Dev nD) : (n : ℕ) → n < cfg6.N → Vec F S1024x1024 .f32
  | 0, hn => k5_pay2 (zblk6 V c ⟨0, hn⟩) (wblk6 V c ⟨0, hn⟩) (k5_pay1 (F := F))
  | n + 1, hn =>
    if (n + 1) % 4 = 0 then k5_pay2 (zblk6 V c ⟨n + 1, hn⟩) (wblk6 V c ⟨n + 1, hn⟩) (k5_pay1 (F := F))
    else k5_pay2 (zblk6 V c ⟨n + 1, hn⟩) (wblk6 V c ⟨n + 1, hn⟩) (accAt6 c n (Nat.lt_of_succ_lt hn))

theorem accAt6_reset (c : Dev nD) (n : ℕ) (hn : n < cfg6.N) (h : n % 4 = 0) :
    accAt6 V c n hn = k5_pay2 (zblk6 V c ⟨n, hn⟩) (wblk6 V c ⟨n, hn⟩) (k5_pay1 (F := F)) := by
  cases n with
  | zero => rfl
  | succ n => exact if_pos h

theorem accAt6_step (c : Dev nD) (n : ℕ) (hn : n < cfg6.N) (h : ¬n % 4 = 0) :
    accAt6 V c n hn = k5_pay2 (zblk6 V c ⟨n, hn⟩) (wblk6 V c ⟨n, hn⟩) (accAt6 V c (n - 1) (Nat.lt_of_le_of_lt (Nat.sub_le _ _) hn)) := by
  cases n with
  | zero => exact absurd (Nat.zero_mod _) h
  | succ n => exact if_neg h

theorem accAt6_first (c : Dev nD) (t : Fin cfg6.N) (h : t.val % 4 = 0) :
    accAt6 V c t.val t.isLt = k5_pay2 (iblk6 V c 0 t) (iblk6 V c 1 t) k5_pay1 :=
  accAt6_reset V c t.val t.isLt h

theorem accAt6_next (c : Dev nD) (t : Fin cfg6.N) (h : t.val % 4 ≠ 0) :
    accAt6 V c t.val t.isLt = k5_pay2 (iblk6 V c 0 t) (iblk6 V c 1 t) (accAt6 V c (t.val - 1) (Nat.lt_of_le_of_lt (Nat.sub_le _ _) t.isLt)) :=
  accAt6_step V c t.val t.isLt h

def PhiS6 (c : Dev nD) : (n : ℕ) → n ≤ cfg6.N → sProp 𝕄
  | 0, _ => Pipeline.ΦA spec6 c
  | n + 1, hn => iprop(iprop(owns (c : Thread nD τ) scM6 fullShare (accAt6 V c n hn) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (accAt6 V c n hn) ∗ rest6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6 fullShare (accAt6 V c (n - 1) (by omega)) ∗ rest6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k5_pay3 (accAt6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem share6 (c : Dev nD) (w : Fin cfg6.W) : (dat6 V c).q w = fullShare := rfl

theorem owed6 (c : Dev nD) (t : Fin (cfg6.N + 1)) : (dat6 V c).owed t = 0 := rfl

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k5_pay3 (accAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- Region 6 runs region 5's body on its own buffers, so region 5's three runs of the body serve here. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show cc6__mm_kernel (F := F) = cc5__mm_kernel (F := F) from rfl]
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 128 := lt_of_lt_of_eq t.isLt (show cfg6.N = 128 from N_6)
  by_cases h0 : t.val % 4 = 0
  · have h1 : ¬t.val % 4 = 3 := by omega
    have hc0 : cond6_0 (grid6.coords t) := (hcond6_0 t).mpr h0
    have hc1 : ¬cond6_1 (grid6.coords t) := fun h => h1 ((hcond6_1 t).mp h)
    rw [Dat.leavesExact_idle (dat6 V c) 2 t (idleAt6_2 t hc1) (noFlush6_2 t hc1)]
    rw [accAt6_reset V c t.val t.isLt h0]
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩⟩
      iapply (run5_A c (grid6.coords t) _ _ _ _ _ _ _ _ hc0 hc1 (zblk6 V c t) (wblk6 V c t) ((dat6 V c).before 2 t d2) Set.univ _)
      iframe H0 H1 H2 HS0
      iintro ⟨H0, H1, H2, HS0⟩
      iframe
      iexists _; iexact H2
    · rw [PhiS6_castSucc V c t, PhiS6_pos V c _ _ hz]
      iintro ⟨⟨⟨HS0, Hr⟩, Hg⟩, Ho, ⟨%d0, H0⟩, ⟨%d1, H1⟩, ⟨%d2, H2⟩⟩
      iapply (run5_A c (grid6.coords t) _ _ _ _ _ _ _ _ hc0 hc1 (zblk6 V c t) (wblk6 V c t) ((dat6 V c).before 2 t d2) Set.univ _)
      isplitl [H0]; · iexact H0
      isplitl [H1]; · iexact H1
      isplitl [H2]; · iexact H2
      isplitl [HS0]; · iexists _; iexact HS0
      iintro ⟨H0, H1, H2, HS0⟩
      iframe
      iexists _; iexact H2
  · have hz : t.val ≠ 0 := fun h => h0 (by rw [h])
    have hc0 : ¬cond6_0 (grid6.coords t) := fun h => h0 ((hcond6_0 t).mp h)
    rw [accAt6_step V c t.val t.isLt h0]
    rw [PhiS6_castSucc V c t, PhiS6_pos V c _ _ hz]
    by_cases h1 : t.val % 4 = 3
    · have hc1 : cond6_1 (grid6.coords t) := (hcond6_1 t).mpr h1
      rw [show (dat6 V c).leavesExact 2 t = owns (c : Thread nD τ) (ms6_2 t) fullShare ((dat6 V c).after 2 t) from by
        unfold Dat.leavesExact; rw [liveAt6_2 t hc1], after6_2, accAt6_step V c t.val t.isLt h0]
      iintro ⟨⟨⟨HS0, Hr⟩, Hg⟩, Ho, ⟨%d0, H0⟩, ⟨%d1, H1⟩, ⟨%d2, H2⟩⟩
      iapply (run5_C c (grid6.coords t) _ _ _ _ _ _ _ _ hc0 hc1 (zblk6 V c t) (wblk6 V c t) _ Set.univ _)
      isplitl [H0]; · iexact H0
      isplitl [H1]; · iexact H1
      isplitl [H2]; · iexists _; iexact H2
      isplitl [HS0]; · iexact HS0
      iintro ⟨H0, H1, H2, HS0⟩
      iframe
    · have hc1 : ¬cond6_1 (grid6.coords t) := fun h => h1 ((hcond6_1 t).mp h)
      rw [Dat.leavesExact_idle (dat6 V c) 2 t (idleAt6_2 t hc1) (noFlush6_2 t hc1)]
      iintro ⟨⟨⟨HS0, Hr⟩, Hg⟩, Ho, ⟨%d0, H0⟩, ⟨%d1, H1⟩, ⟨%d2, H2⟩⟩
      iapply (run5_B c (grid6.coords t) _ _ _ _ _ _ _ _ hc0 hc1 (zblk6 V c t) (wblk6 V c t) ((dat6 V c).before 2 t d2) _ Set.univ _)
      iframe H0 H1 H2 HS0
      iintro ⟨H0, H1, H2, HS0⟩
      iframe
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]; · iexists _; iexact HS0
    iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 128 := N_6; omega)

end Cert.KernelIdeal.Hand

end
-- ==== Proof.KI.Reg7.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOff7 : (![0, 0] : Fin 2 → Nat) = fun _ => 0 := funext fun a => by fin_cases a <;> rfl

theorem read_storeWhole7 {sg : RefSig} {κ : Kind} {sp : Space} (v : View sg κ sp S1024x1000 .f32) (f : v.ty.Contents (Elt F))
    (p : Vec F S1024x1000 .f32) (L : List (View.Piece (Elt F) S1024x1000 .f32)) :
    v.read (Elt F) (v.writes (Elt F) f (⟨Rect.unit ![0, 0] S1024x1000.size inb_S1024x1000_S1024x1000_0_0, p⟩ :: L)) = p := by
  rw [View.read_writes_eq_canon _ _ _ (fun y => ⟨_, List.mem_cons_self, View.mem_set_unit_zero zeroOff7 inb_S1024x1000_S1024x1000_0_0 y⟩),
    View.canon_cons_unit_zero (S := S1024x1000) zeroOff7]

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 (i : grid7.Coords) : cfg7.idle 0 i = false := rfl
theorem liveAt7_1 (i : grid7.Coords) : cfg7.idle 1 i = false := rfl
theorem idleAt7_2 (i : grid7.Coords) (h : ¬cond7_1 i) : cfg7.idle 2 i = true := by
  show (!(k7_cond2 i == 1#1)) = true
  rw [Bool.not_eq_true', beq_eq_false_iff_ne]; exact h
theorem liveAt7_2 (i : grid7.Coords) (h : cond7_1 i) : cfg7.idle 2 i = false := by
  show (!(k7_cond2 i == 1#1)) = false
  rw [Bool.not_eq_false', beq_iff_eq]; exact h
theorem noFlush7_2 (t : Fin cfg7.N) (h : ¬t.val % 4 = 3) : (cfg7.win 2).flush t = false := by
  cases hf : (cfg7.win 2).flush t with
  | false => rfl
  | true => exact absurd ((flush7_2 t).mp hf) h

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev ms7_0 (t : Fin cfg7.N) : Memref sig .tc .vmem S1024x1024 .bf16 := win7_0.stage (cfg7.slots t 0)
abbrev ms7_1 (t : Fin cfg7.N) : Memref sig .tc .vmem S1024x1000 .bf16 := win7_1.stage (cfg7.slots t 1)
abbrev ms7_2 (t : Fin cfg7.N) : Memref sig .tc .vmem S1024x1000 .f32 := win7_2.stage (cfg7.slots t 2)
abbrev scM7 : Memref sig .tc .vmem S1024x1000 .f32 := Memref.whole cc7_scratch0

abbrev others7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ others7 c) ∗ (∃ r, prngReg c r)) := by
  unfold Pipeline.ΦA; rw [scopedRest7_split]; simp only [scM7, owns_whole]; try rfl

set_option maxHeartbeats 1000000 in
theorem run7_reset (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : cond7_0 i) (hc1 : ¬cond7_1 i)
    (z : Vec F S1024x1024 .bf16) (w : Vec F S1024x1000 .bf16) (o : Vec F S1024x1000 .f32)
    (E : Set ℕ) (K : PUnit → sProp 𝕄) :
    iprop(owns (c : Thread nD τ) arg3 fullShare z ∗ owns (c : Thread nD τ) arg4 fullShare w
        ∗ owns (c : Thread nD τ) arg5 fullShare o ∗ (∃ d, owns (c : Thread nD τ) arg6 fullShare d)
        ∗ (iprop(owns (c : Thread nD τ) arg3 fullShare z ∗ owns (c : Thread nD τ) arg4 fullShare w
            ∗ owns (c : Thread nD τ) arg5 fullShare o
            ∗ owns (c : Thread nD τ) arg6 fullShare (k7_pay2 z w (k7_pay1 (F := F)))) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [read_storeWhole7, View.readCov_unit_zero (S := S1024x1000) _ zeroOff7]
  simp only [View.readAt_eq_ld, harg3.read_unread, harg4.read_unread, View.ld_unit_zero (S := S1024x1024) zeroOff7,
    View.ld_unit_zero (S := S1024x1000) zeroOff7]

set_option maxHeartbeats 1000000 in
theorem run7_add (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : ¬cond7_0 i) (hc1 : ¬cond7_1 i)
    (z : Vec F S1024x1024 .bf16) (w : Vec F S1024x1000 .bf16) (o : Vec F S1024x1000 .f32) (s : Vec F S1024x1000 .f32)
    (E : Set ℕ) (K : PUnit → sProp 𝕄) :
    iprop(owns (c : Thread nD τ) arg3 fullShare z ∗ owns (c : Thread nD τ) arg4 fullShare w
        ∗ owns (c : Thread nD τ) arg5 fullShare o ∗ owns (c : Thread nD τ) arg6 fullShare s
        ∗ (iprop(owns (c : Thread nD τ) arg3 fullShare z ∗ owns (c : Thread nD τ) arg4 fullShare w
            ∗ owns (c : Thread nD τ) arg5 fullShare o
            ∗ owns (c : Thread nD τ) arg6 fullShare (k7_pay2 z w s)) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [read_storeWhole7]
  simp only [View.readAt_eq_ld, harg3.read_unread, harg4.read_unread, harg6.read_unread, View.ld_unit_zero (S := S1024x1024) zeroOff7,
    View.ld_unit_zero (S := S1024x1000) zeroOff7]

set_option maxHeartbeats 1000000 in
theorem run7_store (c : Dev nD) (i : grid7.Coords)
    (arg3 : Memref sig .tc .vmem S1024x1024 .bf16) (harg3 : arg3.IsWhole)
    (arg4 : Memref sig .tc .vmem S1024x1000 .bf16) (harg4 : arg4.IsWhole)
    (arg5 : Memref sig .tc .vmem S1024x1000 .f32) (harg5 : arg5.IsWhole)
    (arg6 : Memref sig .tc .vmem S1024x1000 .f32) (harg6 : arg6.IsWhole)
    (hc0 : ¬cond7_0 i) (hc1 : cond7_1 i)
    (z : Vec F S1024x1024 .bf16) (w : Vec F S1024x1000 .bf16) (s : Vec F S1024x1000 .f32)
    (E : Set ℕ) (K : PUnit → sProp 𝕄) :
    iprop(owns (c : Thread nD τ) arg3 fullShare z ∗ owns (c : Thread nD τ) arg4 fullShare w
        ∗ (∃ d, owns (c : Thread nD τ) arg5 fullShare d) ∗ owns (c : Thread nD τ) arg6 fullShare s
        ∗ (iprop(owns (c : Thread nD τ) arg3 fullShare z ∗ owns (c : Thread nD τ) arg4 fullShare w
            ∗ owns (c : Thread nD τ) arg5 fullShare (k7_pay2 z w s)
            ∗ owns (c : Thread nD τ) arg6 fullShare (k7_pay2 z w s)) -∗ K ⟨⟩))
      ⊢ wp frame (wpE (defs₀ (F := F)) Variants.none c none) E (cc7__mm_kernel i arg3 harg3 arg4 harg4 arg5 harg5 arg6 harg6) K := by
  simp only [cc7__mm_kernel_eq_skeleton]; unfold cc7__mm_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_storeWhole7, View.readCov_unit_zero (S := S1024x1000) _ zeroOff7]
    simp only [View.readAt_eq_ld, harg3.read_unread, harg4.read_unread, harg6.read_unread, View.ld_unit_zero (S := S1024x1024) zeroOff7,
      View.ld_unit_zero (S := S1024x1000) zeroOff7]
  iexists _; isplitr
  swap; · iexact HS
  ipureintro
  sl_unfold_run_names
  rw [read_storeWhole7]
  simp only [View.readAt_eq_ld, harg3.read_unread, harg4.read_unread, harg6.read_unread, View.ld_unit_zero (S := S1024x1024) zeroOff7,
    View.ld_unit_zero (S := S1024x1000) zeroOff7]

def accAt7 (c : Dev nD) : (n : ℕ) → n < cfg7.N → Vec F S1024x1000 .f32
  | 0, hn => k7_pay2 (iblk7 V c 0 ⟨0, hn⟩) (iblk7 V c 1 ⟨0, hn⟩) (k7_pay1 (F := F))
  | n + 1, hn =>
    if (n + 1) % 4 = 0 then k7_pay2 (iblk7 V c 0 ⟨n + 1, hn⟩) (iblk7 V c 1 ⟨n + 1, hn⟩) (k7_pay1 (F := F))
    else k7_pay2 (iblk7 V c 0 ⟨n + 1, hn⟩) (iblk7 V c 1 ⟨n + 1, hn⟩) (accAt7 c n (Nat.lt_of_succ_lt hn))

theorem accAt7_first (c : Dev nD) (t : Fin cfg7.N) (h : t.val % 4 = 0) :
    accAt7 V c t.val t.isLt = k7_pay2 (iblk7 V c 0 t) (iblk7 V c 1 t) k7_pay1 := by
  obtain ⟨n, hn⟩ := t
  cases n with
  | zero => rfl
  | succ n => exact if_pos h

theorem accAt7_next (c : Dev nD) (t : Fin cfg7.N) (h : t.val % 4 ≠ 0) :
    accAt7 V c t.val t.isLt
      = k7_pay2 (iblk7 V c 0 t) (iblk7 V c 1 t) (accAt7 V c (t.val - 1) (Nat.lt_of_le_of_lt (Nat.sub_le _ _) t.isLt)) := by
  obtain ⟨n, hn⟩ := t
  cases n with
  | zero => exact absurd (Nat.zero_mod _) h
  | succ n => exact if_neg h

def PhiS7 (c : Dev nD) : (n : ℕ) → n ≤ cfg7.N → sProp 𝕄
  | 0, _ => Pipeline.ΦA spec7 c
  | n + 1, hn => iprop(iprop(owns (c : Thread nD τ) scM7 fullShare (accAt7 V c n hn) ∗ others7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (accAt7 V c n hn) ∗ others7 c) ∗ (∃ r, prngReg c r)) := rfl

theorem PhiS7_pos (c : Dev nD) (n : ℕ) (h : n ≤ cfg7.N) (hz : n ≠ 0) :
    PhiS7 V c n h = iprop(iprop(owns (c : Thread nD τ) scM7 fullShare (accAt7 V c (n - 1) (by omega)) ∗ others7 c) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accAt7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem share7 (c : Dev nD) (w : Fin cfg7.W) : (dat7 V c).q w = fullShare := by
  dsimp only [dat7]

theorem owed7 (c : Dev nD) (t : Fin (cfg7.N + 1)) : (dat7 V c).owed t = 0 := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accAt7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (ms7_0 t) fullShare ((dat7 V c).after 0 t) from by
    unfold Dat.leavesExact; rw [liveAt7_0 (grid7.coords t)], after7_0]
  rw [show (dat7 V c).leavesExact 1 t = owns (c : Thread nD τ) (ms7_1 t) fullShare ((dat7 V c).after 1 t) from by
    unfold Dat.leavesExact; rw [liveAt7_1 (grid7.coords t)], after7_1]
  by_cases h0 : t.val % 4 = 0
  · have h1 : ¬t.val % 4 = 3 := by omega
    have hc0 : cond7_0 (grid7.coords t) := (hcond7_0 t).mpr h0
    have hc1 : ¬cond7_1 (grid7.coords t) := fun h => h1 ((hcond7_1 t).mp h)
    rw [Dat.leavesExact_idle (dat7 V c) 2 t (idleAt7_2 (grid7.coords t) hc1) (noFlush7_2 t h1)]
    rw [accAt7_first V c t h0]
    by_cases hz : t.val = 0
    · rw [PhiS7_castSucc V c t, PhiS7_zero V c _ _ hz, PhiA7_eq]
      iintro ⟨⟨⟨HS, Hr⟩, Hg⟩, Ho, ⟨%d0, H0⟩, ⟨%d1, H1⟩, ⟨%d2, H2⟩⟩
      iapply (run7_reset c (grid7.coords t) _ _ _ _ _ _ _ _ hc0 hc1 (iblk7 V c 0 t) (iblk7 V c 1 t) ((dat7 V c).before 2 t d2) Set.univ _)
      iframe H0 H1 H2 HS
      iintro ⟨H0, H1, H2, HS⟩
      iframe
      iexists _; iexact H2
    · rw [PhiS7_castSucc V c t, PhiS7_pos V c _ _ hz]
      iintro ⟨⟨⟨HS, Hr⟩, Hg⟩, Ho, ⟨%d0, H0⟩, ⟨%d1, H1⟩, ⟨%d2, H2⟩⟩
      iapply (run7_reset c (grid7.coords t) _ _ _ _ _ _ _ _ hc0 hc1 (iblk7 V c 0 t) (iblk7 V c 1 t) ((dat7 V c).before 2 t d2) Set.univ _)
      iframe H0 H1
      isplitl [H2]; · iexact H2
      isplitl [HS]; · iexists _; iexact HS
      iintro ⟨H0, H1, H2, HS⟩
      iframe
      iexists _; iexact H2
  · have hz : t.val ≠ 0 := fun h => h0 (by rw [h])
    have hc0 : ¬cond7_0 (grid7.coords t) := fun h => h0 ((hcond7_0 t).mp h)
    rw [accAt7_next V c t h0]
    rw [PhiS7_castSucc V c t, PhiS7_pos V c _ _ hz]
    by_cases h1 : t.val % 4 = 3
    · have hc1 : cond7_1 (grid7.coords t) := (hcond7_1 t).mpr h1
      rw [show (dat7 V c).leavesExact 2 t = owns (c : Thread nD τ) (ms7_2 t) fullShare ((dat7 V c).after 2 t) from by
        unfold Dat.leavesExact; rw [liveAt7_2 (grid7.coords t) hc1], after7_2, accAt7_next V c t h0]
      iintro ⟨⟨⟨HS, Hr⟩, Hg⟩, Ho, ⟨%d0, H0⟩, ⟨%d1, H1⟩, ⟨%d2, H2⟩⟩
      iapply (run7_store c (grid7.coords t) _ _ _ _ _ _ _ _ hc0 hc1 (iblk7 V c 0 t) (iblk7 V c 1 t)
        (accAt7 V c (t.val - 1) (Nat.lt_of_le_of_lt (Nat.sub_le _ _) t.isLt)) Set.univ _)
      iframe H0 H1
      isplitl [H2]; · iexists _; iexact H2
      isplitl [HS]; · iexact HS
      iintro ⟨H0, H1, H2, HS⟩
      iframe
    · have hc1 : ¬cond7_1 (grid7.coords t) := fun h => h1 ((hcond7_1 t).mp h)
      rw [Dat.leavesExact_idle (dat7 V c) 2 t (idleAt7_2 (grid7.coords t) hc1) (noFlush7_2 t h1)]
      iintro ⟨⟨⟨HS, Hr⟩, Hg⟩, Ho, ⟨%d0, H0⟩, ⟨%d1, H1⟩, ⟨%d2, H2⟩⟩
      iapply (run7_add c (grid7.coords t) _ _ _ _ _ _ _ _ hc0 hc1 (iblk7 V c 0 t) (iblk7 V c 1 t) ((dat7 V c).before 2 t d2)
        (accAt7 V c (t.val - 1) (Nat.lt_of_le_of_lt (Nat.sub_le _ _) t.isLt)) Set.univ _)
      iframe H0 H1 H2 HS
      iintro ⟨H0, H1, H2, HS⟩
      iframe
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]

theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS, Hr⟩, Hg⟩
  isplitl [HS Hr]
  · isplitl [HS]
    · iexists _; iexact HS
    iexact Hr
  iexact Hg

theorem hout7 (c : Dev nD) : (dat7 V c).Φ (Fin.last cfg7.N) ⊢ (Pipeline.ΦA spec7 c : sProp 𝕄) :=
  Phi_out7 V c _ (by rw [Fin.val_last]; have : cfg7.N = 32 := N_7; omega)

end Cert.KernelIdeal.Hand

end
-- ==== Proof.KI.Reg8.lean ====
import proofs.«134585_j83811991814293_1_alg».proof.Proof.Gen.KernelIdeal.Launch
import proofs.«134585_j83811991814293_1_alg».proof.Proof.Gen.KernelIdeal.Skeleton
import proofs.«134585_j83811991814293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem logits_before_of {c : Dev nD} (dat : Dat τ (Elt F) Unit ℕ (UR sig nD τ) ℕ cfg8 c) (hA : dat.A 0 = V c (Pipeline.arrRef spec8 0))
    (hrows : ∀ t, dat.after 0 t = iblk8 V c 0 t) (t : Fin cfg8.N) (d) : dat.before 0 t d = iblk8 V c 0 t := by
  have hkeep : ∀ t, (cfg8.win 0).cut (cfg8.grid.coords t) (dat.after 0 t) = dat.blockOf 0 t := fun t => by
    rw [hrows]; unfold Dat.blockOf iblk8; rw [hA]; try rfl
  refine (dat.before_in_eq_fetched 0 rfl (fun _ => rfl) (fun _ _ _ => rfl) hkeep t d).trans ?_
  unfold Dat.fetched Dat.blockOf iblk8; rw [hA]; try rfl

abbrev rows8 : Rect S1024x1000 := Rect.unit (s := S1024x1000) ![0, 0] S1024x1000.size inb_S1024x1000_S1024x1000_0_0

def lsmBlock8 (x : Vec F S1024x1000 .f32) : Vec F S1024x1000 .f32 :=
  View.canon [⟨rows8, k8_pay1 (View.ld x rows8)⟩]

theorem rows8_cover (p : Vec F S1024x1000 .f32) (y : S1024x1000.Idx) :
    ∃ pc ∈ ([⟨rows8, p⟩] : List (View.Piece (Elt F) S1024x1000 .f32)), y ∈ pc.1.set :=
  View.cover_of_tiled [⟨rows8, p⟩] S1024x1000.size (by rfl) y

set_option maxHeartbeats 1000000 in
theorem sound_lsm8 (c : Dev nD) (E : Set ℕ) (i : grid8.Coords) (arg1 : Memref sig .tc .vmem S1024x1000 .f32) (harg1 : arg1.IsWhole)
    (arg2 : Memref sig .tc .vmem S1024x1000 .f32) (harg2 : arg2.IsWhole) (x : Vec F S1024x1000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (lsmBlock8 x)) -∗ K ⟨⟩))
      ⊢ wp frame (wpE (defs₀ (F := F)) Variants.none c none) E (cc8__log_softmax_kernel i arg1 harg1 arg2 harg2) K := by
  simp only [cc8__log_softmax_kernel_eq_skeleton]; unfold cc8__log_softmax_kernel_skel
  unfold owns
  iintro ⟨⟨%fx, %hfx, Hx⟩, ⟨%d, %fd, -, Hd⟩, Hk⟩
  subst hfx
  sl_exec
  sl_step
  iapply Hk
  isplitl [Hx]
  · iexists fx; isplitr; · ipureintro; rfl
    iexact Hx
  iexists _; isplitr
  swap; · iexact Hd
  ipureintro
  exact View.read_writes_eq_canon _ _ _ (rows8_cover _)

def dat8 (V : (c : Dev nD) → (b : Ref sig .tc) → Buf (Elt F) ((c : Thread nD τ).loc b)) (c : Dev nD) : Dat τ (Elt F) Unit ℕ (UR sig nD τ) ℕ cfg8 c where
  A w := V c (Pipeline.arrRef spec8 w)
  after w t := match w with
    | ⟨0, _⟩ => iblk8 V c 0 t
    | ⟨1, _⟩ => lsmBlock8 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem share8 (c : Dev nD) (w : Fin cfg8.W) : (dat8 V c).q w = fullShare := by
  dsimp only [dat8]

theorem owed8 (c : Dev nD) (t : Fin (cfg8.N + 1)) : (dat8 V c).owed t = 0 := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = lsmBlock8 (iblk8 V c 0 t) := by dsimp only [dat8]

theorem before8_0 (c : Dev nD) (t : Fin cfg8.N) (d) : (dat8 V c).before 0 t d = iblk8 V c 0 t :=
  logits_before_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, Hin⟩, ⟨%d1, Hout⟩⟩
  iapply (sound_lsm8 c Set.univ _ _ _ _ _ (iblk8 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := .rfl

theorem hout8 (c : Dev nD) : (dat8 V c).Φ (Fin.last cfg8.N) ⊢ (Pipeline.ΦA spec8 c : sProp 𝕄) := .rfl

end Cert.KernelIdeal.Hand

end
-- ==== Proof.KI.Run.lean ====
import proofs.«134585_j83811991814293_1_alg».proof.Proof.KI.Reg0
import proofs.«134585_j83811991814293_1_alg».proof.Proof.KI.Reg1
import proofs.«134585_j83811991814293_1_alg».proof.Proof.KI.Reg2
import proofs.«134585_j83811991814293_1_alg».proof.Proof.KI.Reg3
import proofs.«134585_j83811991814293_1_alg».proof.Proof.KI.Reg4
import proofs.«134585_j83811991814293_1_alg».proof.Proof.KI.Reg5
import proofs.«134585_j83811991814293_1_alg».proof.Proof.KI.Reg6
import proofs.«134585_j83811991814293_1_alg».proof.Proof.KI.Reg7
import proofs.«134585_j83811991814293_1_alg».proof.Proof.KI.Reg8
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

/-- The buffer contents after a region: its arrays at their final contents, every other buffer unchanged. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b

def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b

def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
abbrev V5 : (c : Dev nD) → (b : Ref sig .tc) → Buf (Elt F) ((c : Thread nD τ).loc b) := fun c b => W5 m c b

def W6 (c : Dev nD) : Valuation τ sig (Elt F) :=
  Pipeline.withArrays spec5 c (W5 m c) fun w => (dat5 (V5 m) c).arrAt w cfg5.N
theorem W6_arr (c : Dev nD) (w : Fin cfg5.W) :
    W6 m c (Proc.devRef .tc (Pipeline.arrRef spec5 w)) = (dat5 (V5 m) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m c (Proc.devRef .tc b) = W5 m c (Proc.devRef .tc b) := by
  unfold W6; exact Pipeline.withArrays_of_ne spec5 c _ _ b hb
abbrev V6 : (c : Dev nD) → (b : Ref sig .tc) → Buf (Elt F) ((c : Thread nD τ).loc b) := fun c b => W6 m c b

def W7 (c : Dev nD) : Valuation τ sig (Elt F) :=
  Pipeline.withArrays spec6 c (W6 m c) fun w => (dat6 (V6 m) c).arrAt w cfg6.N
theorem W7_arr (c : Dev nD) (w : Fin cfg6.W) :
    W7 m c (Proc.devRef .tc (Pipeline.arrRef spec6 w)) = (dat6 (V6 m) c).arrAt w cfg6.N := by
  unfold W7; exact Pipeline.withArrays_arr spec6 launch6.win.arr_inj c _ _ w
theorem W7_of_ne (c : Dev nD) (b : Ref sig .tc) (hb : ∀ w, Pipeline.arrRef spec6 w ≠ b) :
    W7 m c (Proc.devRef .tc b) = W6 m c (Proc.devRef .tc b) := by
  unfold W7; exact Pipeline.withArrays_of_ne spec6 c _ _ b hb
abbrev V7 : (c : Dev nD) → (b : Ref sig .tc) → Buf (Elt F) ((c : Thread nD τ).loc b) := fun c b => W7 m c b

def W8 (c : Dev nD) : Valuation τ sig (Elt F) :=
  Pipeline.withArrays spec7 c (W7 m c) fun w => (dat7 (V7 m) c).arrAt w cfg7.N
theorem W8_arr (c : Dev nD) (w : Fin cfg7.W) :
    W8 m c (Proc.devRef .tc (Pipeline.arrRef spec7 w)) = (dat7 (V7 m) c).arrAt w cfg7.N := by
  unfold W8; exact Pipeline.withArrays_arr spec7 launch7.win.arr_inj c _ _ w
theorem W8_of_ne (c : Dev nD) (b : Ref sig .tc) (hb : ∀ w, Pipeline.arrRef spec7 w ≠ b) :
    W8 m c (Proc.devRef .tc b) = W7 m c (Proc.devRef .tc b) := by
  unfold W8; exact Pipeline.withArrays_of_ne spec7 c _ _ b hb
abbrev V8 : (c : Dev nD) → (b : Ref sig .tc) → Buf (Elt F) ((c : Thread nD τ).loc b) := fun c b => W8 m c b

def W9 (c : Dev nD) : Valuation τ sig (Elt F) :=
  Pipeline.withArrays spec8 c (W8 m c) fun w => (dat8 (V8 m) c).arrAt w cfg8.N
theorem W9_arr (c : Dev nD) (w : Fin cfg8.W) :
    W9 m c (Proc.devRef .tc (Pipeline.arrRef spec8 w)) = (dat8 (V8 m) c).arrAt w cfg8.N := by
  unfold W9; exact Pipeline.withArrays_arr spec8 launch8.win.arr_inj c _ _ w
theorem W9_of_ne (c : Dev nD) (b : Ref sig .tc) (hb : ∀ w, Pipeline.arrRef spec8 w ≠ b) :
    W9 m c (Proc.devRef .tc b) = W8 m c (Proc.devRef .tc b) := by
  unfold W9; exact Pipeline.withArrays_of_ne spec8 c _ _ b hb
abbrev V9 : (c : Dev nD) → (b : Ref sig .tc) → Buf (Elt F) ((c : Thread nD τ).loc b) := fun c b => W9 m c b

/-- An input window's array holds after the region what it held before. -/
theorem W1_in (c : Dev nD) (w : Fin cfg0.W) (h : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w h _).trans (A_eq0 (V0 m) c w))

theorem W2_in (c : Dev nD) (w : Fin cfg1.W) (h : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w h _).trans (A_eq1 (V1 m) c w))

theorem W3_in (c : Dev nD) (w : Fin cfg2.W) (h : (cfg2.win w).isOut = false) :
    W3 m c (Proc.devRef .tc (Pipeline.arrRef spec2 w)) = W2 m c (Proc.devRef .tc (Pipeline.arrRef spec2 w)) :=
  (W3_arr m c w).trans (((dat2 (V2 m) c).arrAt_in w h _).trans (A_eq2 (V2 m) c w))

theorem W4_in (c : Dev nD) (w : Fin cfg3.W) (h : (cfg3.win w).isOut = false) :
    W4 m c (Proc.devRef .tc (Pipeline.arrRef spec3 w)) = W3 m c (Proc.devRef .tc (Pipeline.arrRef spec3 w)) :=
  (W4_arr m c w).trans (((dat3 (V3 m) c).arrAt_in w h _).trans (A_eq3 (V3 m) c w))

theorem W5_in (c : Dev nD) (w : Fin cfg4.W) (h : (cfg4.win w).isOut = false) :
    W5 m c (Proc.devRef .tc (Pipeline.arrRef spec4 w)) = W4 m c (Proc.devRef .tc (Pipeline.arrRef spec4 w)) :=
  (W5_arr m c w).trans (((dat4 (V4 m) c).arrAt_in w h _).trans (A_eq4 (V4 m) c w))

theorem W9_main_arg0 (c : Dev nD) : W9 m c (Proc.devRef .tc main_arg0) = m ((c : Thread nD τ).loc main_arg0) :=
  (W9_of_ne m c _ (by decide)).trans <| (W8_of_ne m c _ (by decide)).trans <| (W7_of_ne m c _ (by decide)).trans <|
    (W6_of_ne m c _ (by decide)).trans <| (W5_in m c 0 rfl).trans <| (W4_of_ne m c _ (by decide)).trans <|
    (W3_of_ne m c _ (by decide)).trans <| (W2_of_ne m c _ (by decide)).trans <| (W1_of_ne m c _ (by decide))

theorem W9_main_arg1 (c : Dev nD) : W9 m c (Proc.devRef .tc main_arg1) = m ((c : Thread nD τ).loc main_arg1) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_of_ne m c _ (by decide)).trans <| (W1_in m c 0 rfl)

theorem W9_main_arg2 (c : Dev nD) : W9 m c (Proc.devRef .tc main_arg2) = m ((c : Thread nD τ).loc main_arg2) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_of_ne m c _ (by decide)).trans <| (W1_in m c 1 rfl)

theorem W9_main_arg3 (c : Dev nD) : W9 m c (Proc.devRef .tc main_arg3) = m ((c : Thread nD τ).loc main_arg3) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_in m c 0 rfl).trans <| (W1_of_ne m c _ (by decide))

theorem W9_main_arg4 (c : Dev nD) : W9 m c (Proc.devRef .tc main_arg4) = m ((c : Thread nD τ).loc main_arg4) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_of_ne m c _ (by decide)).trans <| (W2_in m c 1 rfl).trans <| (W1_of_ne m c _ (by decide))

theorem W9_main_arg5 (c : Dev nD) : W9 m c (Proc.devRef .tc main_arg5) = m ((c : Thread nD τ).loc main_arg5) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_in m c 0 rfl).trans <| (W2_of_ne m c _ (by decide)).trans <| (W1_of_ne m c _ (by decide))

theorem W9_main_arg6 (c : Dev nD) : W9 m c (Proc.devRef .tc main_arg6) = m ((c : Thread nD τ).loc main_arg6) :=
  (W9_of_ne m c _ (by decide)).trans <| (W8_of_ne m c _ (by decide)).trans <| (W7_of_ne m c _ (by decide)).trans <|
    (W6_of_ne m c _ (by decide)).trans <| (W5_of_ne m c _ (by decide)).trans <| (W4_of_ne m c _ (by decide)).trans <|
    (W3_in m c 1 rfl).trans <| (W2_of_ne m c _ (by decide)).trans <| (W1_of_ne m c _ (by decide))

theorem W9_main_arg7 (c : Dev nD) : W9 m c (Proc.devRef .tc main_arg7) = m ((c : Thread nD τ).loc main_arg7) :=
  (W9_of_ne m c _ (by decide)).trans <| (W8_of_ne m c _ (by decide)).trans <| (W7_of_ne m c _ (by decide)).trans <|
    (W6_of_ne m c _ (by decide)).trans <| (W5_of_ne m c _ (by decide)).trans <| (W4_in m c 0 rfl).trans <|
    (W3_of_ne m c _ (by decide)).trans <| (W2_of_ne m c _ (by decide)).trans <| (W1_of_ne m c _ (by decide))

theorem W9_main_arg8 (c : Dev nD) : W9 m c (Proc.devRef .tc main_arg8) = m ((c : Thread nD τ).loc main_arg8) :=
  (W9_of_ne m c _ (by decide)).trans <| (W8_of_ne m c _ (by decide)).trans <| (W7_of_ne m c _ (by decide)).trans <|
    (W6_of_ne m c _ (by decide)).trans <| (W5_of_ne m c _ (by decide)).trans <| (W4_in m c 1 rfl).trans <|
    (W3_of_ne m c _ (by decide)).trans <| (W2_of_ne m c _ (by decide)).trans <| (W1_of_ne m c _ (by decide))

abbrev admH : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
  | ⟨5, _⟩ => fun c => dat5 (V5 m) c
  | ⟨6, _⟩ => fun c => dat6 (V6 m) c
  | ⟨7, _⟩ => fun c => dat7 (V7 m) c
  | ⟨8, _⟩ => fun c => dat8 (V8 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W9 m c) ∗ ∃ r, prngReg c r)

set_option backward.isDefEq.respectTransparency.types false in
/-- A region as a segment: its arrays are split out of the buffers held at `Win` and put back at `Wout`; nothing is owed. -/
def regOf (p : Fin 9) (lf : Pipeline.LaunchFacts (nD := nD) (τ := τ) cfgs p) (Win Wout : Dev nD → Valuation τ sig (Elt F))
    (hbody : ∀ c, BodyObligation (pdats m p c) (defs₀ (F := F)) 𝒱H () Set.univ)
    (hq : ∀ c w, (pdats m p c).q w = fullShare) (howed : ∀ c t, (pdats m p c).owed t = 0)
    (hrec : ∀ c x, x ∈ (pdats m p c).recorded 0)
    (hA : ∀ c w, (pdats m p c).A w = Win c (Proc.devRef .tc (Pipeline.arrRef (Pipeline.pin (pcfgs (F := F)) admH p).spec w)))
    (hF : ∀ c w, Wout c (Proc.devRef .tc (Pipeline.arrRef (Pipeline.pin (pcfgs (F := F)) admH p).spec w))
      = (pdats m p c).arrAt w (Pipeline.pin (pcfgs (F := F)) admH p).N)
    (hne : ∀ c (b : Ref sig .tc), (∀ w, Pipeline.arrRef (Pipeline.pin (pcfgs (F := F)) admH p).spec w ≠ b) →
      Wout c (Proc.devRef .tc b) = Win c (Proc.devRef .tc b))
    (hΦin : ∀ c, (Pipeline.ΦA (Pipeline.pin (pcfgs (F := F)) admH p).spec c : sProp 𝕄) ⊢ (pdats m p c).Φ 0)
    (hΦout : ∀ c, (pdats m p c).Φ (Fin.last _) ⊢ (Pipeline.ΦA (Pipeline.pin (pcfgs (F := F)) admH p).spec c : sProp 𝕄)) :
    Pipeline.RegionSeg (pcfgs (F := F)) admH (pdats m) () defs₀ 𝒱H LH lvH p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ LH lvH p howed
  pre c := iprop(StableHlo.held (c : Thread nD τ) (Pipeline.ucRefs τ sig) (Win c) ∗ RH c)
  post c := iprop(StableHlo.held (c : Thread nD τ) (Pipeline.ucRefs τ sig) (Wout c) ∗ RH c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admH p).spec c
    (fun b => Win c b)
  hentry c := by
    rw [Pipeline.ownSems0_none]
    have hsplit := Pipeline.arrays_of_unscopedBufs (p := p) (pcfgs (F := F)) admH (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c _)
      iexact HO
    isplitl [Hp]; · iexact Hp
    iexact Hrest
  hin c :=
    (show iprop((∃ r, prngReg c r) ∗ Pipeline.prefHeld (pcfgs (F := F) p).pre c (fun _ => fullShare) (admH (F := F) p).1
          ∗ Pipeline.scopedRest (Pipeline.pin (pcfgs (F := F)) admH p).spec c)
        ⊢ (Pipeline.ΦA (Pipeline.pin (pcfgs (F := F)) admH p).spec c : sProp 𝕄) from by
      unfold Pipeline.ΦA
      iintro ⟨Hp, -, Hr⟩
      isplitl [Hr]; · iexact Hr
      iexact Hp).trans (hΦin c)
  hout c := by
    rw [Pipeline.ownSems0_none]
    exact (hΦout c).trans (by
      unfold Pipeline.ΦA
      iintro ⟨Hr, Hp⟩
      isplitl [Hp]; · iexact Hp
      isplitr; · iempintro
      iexact Hr)
  hexit c := by
    have hjoin := Pipeline.unscopedBufs_of_arrays (p := p) (pcfgs (F := F)) admH (Ix := Unit) (Name := ℕ) (U := UR sig nD τ) (Lvl := ℕ)
      lf.win lf.arr_whole c (pdats m) ((pdats m p c).share_full (hq c))
      (fun b => Win c b) (fun b => Wout c b) ((pdats m p c).arrAt · _) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
abbrev segsH : List (Pipeline.Seg (pcfgs (F := F)) admH (pdats m) () defs₀ 𝒱H LH lvH) :=
  [ .region (regOf m 0 launch0 (W0 m) (W1 m) (body_obligation0 (V0 m)) (share0 (V0 m)) (owed0 (V0 m)) (fun _ _ => trivial) (A_eq0 (V0 m))
      (W1_arr m) (W1_of_ne m) (hin0 (V0 m)) (hout0 (V0 m))),
    .region (regOf m 1 launch1 (W1 m) (W2 m) (body_obligation1 (V1 m)) (share1 (V1 m)) (owed1 (V1 m)) (fun _ _ => trivial) (A_eq1 (V1 m))
      (W2_arr m) (W2_of_ne m) (hin1 (V1 m)) (hout1 (V1 m))),
    .region (regOf m 2 launch2 (W2 m) (W3 m) (body_obligation2 (V2 m)) (share2 (V2 m)) (owed2 (V2 m)) (fun _ _ => trivial) (A_eq2 (V2 m))
      (W3_arr m) (W3_of_ne m) (hin2 (V2 m)) (hout2 (V2 m))),
    .region (regOf m 3 launch3 (W3 m) (W4 m) (body_obligation3 (V3 m)) (share3 (V3 m)) (owed3 (V3 m)) (fun _ _ => trivial) (A_eq3 (V3 m))
      (W4_arr m) (W4_of_ne m) (hin3 (V3 m)) (hout3 (V3 m))),
    .region (regOf m 4 launch4 (W4 m) (W5 m) (body_obligation4 (V4 m)) (share4 (V4 m)) (owed4 (V4 m)) (fun _ _ => trivial) (A_eq4 (V4 m))
      (W5_arr m) (W5_of_ne m) (hin4 (V4 m)) (hout4 (V4 m))),
    .region (regOf m 5 launch5 (W5 m) (W6 m) (body_obligation5 (V5 m)) (share5 (V5 m)) (owed5 (V5 m)) (fun _ _ => trivial) (A_eq5 (V5 m))
      (W6_arr m) (W6_of_ne m) (hin5 (V5 m)) (hout5 (V5 m))),
    .region (regOf m 6 launch6 (W6 m) (W7 m) (body_obligation6 (V6 m)) (share6 (V6 m)) (owed6 (V6 m)) (fun _ _ => trivial) (A_eq6 (V6 m))
      (W7_arr m) (W7_of_ne m) (hin6 (V6 m)) (hout6 (V6 m))),
    .region (regOf m 7 launch7 (W7 m) (W8 m) (body_obligation7 (V7 m)) (share7 (V7 m)) (owed7 (V7 m)) (fun _ _ => trivial) (A_eq7 (V7 m))
      (W8_arr m) (W8_of_ne m) (hin7 (V7 m)) (hout7 (V7 m))),
    .region (regOf m 8 launch8 (W8 m) (W9 m) (body_obligation8 (V8 m)) (share8 (V8 m)) (owed8 (V8 m)) (fun _ _ => trivial) (A_eq8 (V8 m))
      (W9_arr m) (W9_of_ne m) (hin8 (V8 m)) (hout8 (V8 m))) ]
theorem main_runH (c : Dev nD) : main (F := F) c = Pipeline.Seg.run (segsH m) := (main_chain c).trans (by chain_rfl)

set_option backward.isDefEq.respectTransparency.types false in
/-- Every weakly fair execution of @main ends with the result array at the last contents and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v8) = W9 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v8 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c),
       (h c _ (mem_uc main_arg4 (by decide))).trans (W9_main_arg4 m c),
       (h c _ (mem_uc main_arg5 (by decide))).trans (W9_main_arg5 m c),
       (h c _ (mem_uc main_arg6 (by decide))).trans (W9_main_arg6 m c),
       (h c _ (mem_uc main_arg7 (by decide))).trans (W9_main_arg7 m c),
       (h c _ (mem_uc main_arg8 (by decide))).trans (W9_main_arg8 m c)⟩)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Mat (M N : ℕ) : Type := (⟨2, ![M, N]⟩ : Shape).Idx → EReal

def mm {M K N : ℕ} (A : Mat M K) (B : Mat K N) : Mat M N :=
  fun i => ∑ k : Fin K, A (ix2 (i 0 : Fin M) k) * B (ix2 k (i 1 : Fin N))

theorem mm_apply {M K N : ℕ} (A : Mat M K) (B : Mat K N) (p : Fin M) (q : Fin N) :
    mm A B (ix2 p q) = ∑ k : Fin K, A (ix2 p k) * B (ix2 k q) := rfl

def relu {M N : ℕ} (A : Mat M N) : Mat M N := fun i => max (A i) 0

theorem relu_apply {M N : ℕ} (A : Mat M N) (i : (⟨2, ![M, N]⟩ : Shape).Idx) : relu A i = max (A i) 0 := rfl

def ninf : EReal := Ideal.ofBits .f32 0xFF800000#32

def rowMax {M N : ℕ} (Y : Mat M N) (p : Fin M) : EReal :=
  (Finset.univ : Finset (Fin N)).fold max ninf (fun k => Y (ix2 p k))

def rowSumExp {M N : ℕ} (Y : Mat M N) (p : Fin M) : EReal :=
  ∑ k : Fin N, Ideal.exp (Y (ix2 p k) - rowMax Y p)

def lsm {M N : ℕ} (Y : Mat M N) : Mat M N :=
  fun i => (Y i - rowMax Y (i 0 : Fin M)) - Ideal.log (rowSumExp Y (i 0 : Fin M))

theorem lsm_apply {M N : ℕ} (Y : Mat M N) (p : Fin M) (q : Fin N) :
    lsm Y (ix2 p q) = (Y (ix2 p q) - rowMax Y p) - Ideal.log (rowSumExp Y p) := rfl

def net (x : Mat 8192 1024) (K0 : Mat 1024 128) (Vt0 : Mat 128 4096) (K1 : Mat 4096 128) (Vt1 : Mat 128 4096)
    (K2 : Mat 4096 128) (Vt2 : Mat 128 4096) (K3 : Mat 4096 128) (Vt3 : Mat 128 1000) : Mat 8192 1000 :=
  lsm (mm (relu (mm (relu (mm (relu (mm x (mm K0 Vt0))) (mm K1 Vt1))) (mm K2 Vt2))) (mm K3 Vt3))

end Cert.Spec

end
-- ==== Proof.LibDotPlain.lean ====
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

theorem getElem_zero_of_eq_singleton {α : Type} {l : List α} {c : α} (h : l = [c]) (hp : 0 < l.length) : l[0] = c := by
  subst h; rfl

theorem contr_rank_one {sl sr so : Shape} (d : DotDims sl sr so) {c : Fin sl.rank} (hlc : d.lhsContracting = [c]) :
    d.contr.rank = 1 := by
  rw [d.rank_contr, hlc]; rfl

theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

private theorem val_congr {s : Shape} (j : s.Idx) (p q : Nat) (hp : p < s.rank) (hq : q < s.rank) (h : p = q) :
    (j ⟨p, hp⟩).val = (j ⟨q, hq⟩).val := by
  subst h; rfl

theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

end Cert.DotPlain

end
-- ==== Proof.KI.Val1.lean ====
import proofs.«134585_j83811991814293_1_alg».proof.Proof.KI.Reg1
import proofs.«134585_j83811991814293_1_alg».proof.Proof.Spec
import proofs.«134585_j83811991814293_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeroOffsets1 : (![0, 0] : Fin 2 → Nat) = fun _ => 0 := funext fun a => by fin_cases a <;> rfl

theorem product_entry1 (kb : Vec Ideal S1024x128 .f32) (vtb : Vec Ideal S128x1024 .f32) (p : Fin 1024) (q : Fin 1024) :
    k1_pay1 kb vtb (ix2 p q) = ∑ k : Fin 128, kb (ix2 p k) * vtb (ix2 k q) := by
  unfold k1_pay1
  exact Cert.DotPlain.matmul_zero_rows_cols (φ₁ := .f32) (φ₂ := .f32) dot_S1024x128_S128x1024_S1024x1024_1_0_0_1_n_n
    rfl rfl rfl rfl rfl rfl none kb vtb p q

theorem blockIndex1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) :=
  (by decide +kernel : ∀ t : Fin grid1.N, _)

theorem blockOnto1 : ∀ (i : Fin 4) (j : Fin 4), ∃ t : Fin cfg1.N, win1_2.index t = ![i.val, j.val] :=
  (by decide +kernel : ∀ (i : Fin 4) (j : Fin 4), ∃ t : Fin grid1.N, win1_2.index t = ![i.val, j.val])

abbrev kArr1 (c : Dev nD) : Spec.Mat 4096 128 := V c main_arg3
abbrev vtArr1 (c : Dev nD) : Spec.Mat 128 4096 := V c main_arg4

theorem flushed1 (c : Dev nD) (t : Fin cfg1.N) :
    (dat1 (F := Ideal) V c).flushed 2 t = ((cfg1.win 2).blk t).view.read (Elt Ideal)
      (Spec.mm (V c main_arg3 : Spec.Mat 4096 128) (V c main_arg4 : Spec.Mat 128 4096)) := by
  show (cfg1.win 2).cut (grid1.coords t) ((dat1 V c).after 2 t) = _
  rw [after1_W]
  unfold product1
  rw [View.canon_unit_zero zeroOffsets1]
  simp only [View.ld_unit_zero (S := S1024x128) zeroOffsets1, View.ld_unit_zero (S := S128x1024) zeroOffsets1]
  obtain ⟨e0, e1, e2, e3⟩ := blockIndex1 t
  funext j
  obtain ⟨p, q, rfl⟩ : ∃ (p : Fin 1024) (q : Fin 1024), j = ix2 p q := ⟨j 0, j 1, eq_ix2 j⟩
  show k1_pay1 (iblk1 V c 0 t) (iblk1 V c 1 t) (ix2 p q)
    = Spec.mm (V c main_arg3 : Spec.Mat 4096 128) (V c main_arg4 : Spec.Mat 128 4096) (((cfg1.win 2).blk t).view.emb (ix2 p q))
  refine (product_entry1 (iblk1 V c 0 t) (iblk1 V c 1 t) p q).trans ?_
  refine Finset.sum_congr rfl fun k _ => ?_
  have hK : ((cfg1.win 0).blk t).view.emb (ix2 p k)
      = ix2 (n0 := 4096) (n1 := 128) ((((cfg1.win 2).blk t).view.emb (ix2 p q)) 0) k := by
    funext a; apply Fin.ext
    match a with
    | ⟨0, _⟩ =>
      show win1_0.index t (0 : Fin 2) * 1024 + 1 * p.val = win1_2.index t (0 : Fin 2) * 1024 + 1 * p.val
      rw [e0]
    | ⟨1, _⟩ =>
      show win1_0.index t (1 : Fin 2) * 128 + 1 * k.val = k.val
      omega
  have hVt : ((cfg1.win 1).blk t).view.emb (ix2 k q)
      = ix2 (n0 := 128) (n1 := 4096) k ((((cfg1.win 2).blk t).view.emb (ix2 p q)) 1) := by
    funext a; apply Fin.ext
    match a with
    | ⟨0, _⟩ =>
      show win1_1.index t (0 : Fin 2) * 128 + 1 * k.val = k.val
      omega
    | ⟨1, _⟩ =>
      show win1_1.index t (1 : Fin 2) * 1024 + 1 * q.val = win1_2.index t (1 : Fin 2) * 1024 + 1 * q.val
      rw [e3]
  exact congrArg₂ (fun x y : EReal => x * y) (congrArg (kArr1 V c) hK) (congrArg (vtArr1 V c) hVt)

theorem mem_block1 (t : Fin cfg1.N) (i : S4096x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

theorem covered1 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := blockOnto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_block1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

theorem value1 (c : Dev nD) :
    ((dat1 (F := Ideal) V c).arrAt 2 cfg1.N : Spec.Mat 4096 4096) = Spec.mm (V c main_arg3 : Spec.Mat 4096 128) (V c main_arg4 : Spec.Mat 128 4096) :=
  (dat1 (F := Ideal) V c).arrAt_eq_of_cover 2
    (Spec.mm (V c main_arg3 : Spec.Mat 4096 128) (V c main_arg4 : Spec.Mat 128 4096))
    (fun t _ => flushed1 V c t) covered1

end Cert.KernelIdeal.Hand

end
-- ==== Proof.KI.Val0.lean ====
import proofs.«134585_j83811991814293_1_alg».proof.Proof.KI.Reg0
import proofs.«134585_j83811991814293_1_alg».proof.Proof.Spec
import proofs.«134585_j83811991814293_1_alg».proof.Proof.LibDotPlain
import proofs.«134585_j83811991814293_1_alg».proof.Proof.KI.Val1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem blockIndex0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem blockOnto0 : ∀ (i : Fin 1) (j : Fin 4), ∃ t : Fin cfg0.N, win0_2.index t = ![i.val, j.val] :=
  (by decide +kernel : ∀ (i : Fin 1) (j : Fin 4), ∃ t : Fin grid0.N, win0_2.index t = ![i.val, j.val])

abbrev kArr0 (c : Dev nD) : Spec.Mat 1024 128 := V c main_arg1
abbrev vtArr0 (c : Dev nD) : Spec.Mat 128 4096 := V c main_arg2

theorem flushed0 (c : Dev nD) (t : Fin cfg0.N) :
    (dat0 (F := Ideal) V c).flushed 2 t = ((cfg0.win 2).blk t).view.read (Elt Ideal)
      (Spec.mm (V c main_arg1 : Spec.Mat 1024 128) (V c main_arg2 : Spec.Mat 128 4096)) := by
  show (cfg0.win 2).cut (grid0.coords t) ((dat0 V c).after 2 t) = _
  rw [after0_W]
  unfold product1
  rw [View.canon_unit_zero zeroOffsets1]
  simp only [View.ld_unit_zero (S := S1024x128) zeroOffsets1, View.ld_unit_zero (S := S128x1024) zeroOffsets1]
  obtain ⟨e0, e1, e2, e3⟩ := blockIndex0 t
  funext j
  obtain ⟨p, q, rfl⟩ : ∃ (p : Fin 1024) (q : Fin 1024), j = ix2 p q := ⟨j 0, j 1, eq_ix2 j⟩
  show k1_pay1 (iblk0 V c 0 t) (iblk0 V c 1 t) (ix2 p q)
    = Spec.mm (V c main_arg1 : Spec.Mat 1024 128) (V c main_arg2 : Spec.Mat 128 4096) (((cfg0.win 2).blk t).view.emb (ix2 p q))
  refine (product_entry1 (iblk0 V c 0 t) (iblk0 V c 1 t) p q).trans ?_
  refine Finset.sum_congr rfl fun k _ => ?_
  have hK : ((cfg0.win 0).blk t).view.emb (ix2 p k)
      = ix2 (n0 := 1024) (n1 := 128) ((((cfg0.win 2).blk t).view.emb (ix2 p q)) 0) k := by
    funext a; apply Fin.ext
    match a with
    | ⟨0, _⟩ =>
      show win0_0.index t (0 : Fin 2) * 1024 + 1 * p.val = win0_2.index t (0 : Fin 2) * 1024 + 1 * p.val
      rw [e0]
    | ⟨1, _⟩ =>
      show win0_0.index t (1 : Fin 2) * 128 + 1 * k.val = k.val
      omega
  have hVt : ((cfg0.win 1).blk t).view.emb (ix2 k q)
      = ix2 (n0 := 128) (n1 := 4096) k ((((cfg0.win 2).blk t).view.emb (ix2 p q)) 1) := by
    funext a; apply Fin.ext
    match a with
    | ⟨0, _⟩ =>
      show win0_1.index t (0 : Fin 2) * 128 + 1 * k.val = k.val
      omega
    | ⟨1, _⟩ =>
      show win0_1.index t (1 : Fin 2) * 1024 + 1 * q.val = win0_2.index t (1 : Fin 2) * 1024 + 1 * q.val
      rw [e3]
  exact congrArg₂ (fun x y : EReal => x * y) (congrArg (kArr0 V c) hK) (congrArg (vtArr0 V c) hVt)

theorem mem_block0 (t : Fin cfg0.N) (i : S1024x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

theorem covered0 (i : S1024x4096.Idx) :
    ∃ t : Fin cfg0.N, (cfg0.win 2).flush t = true ∧ i ∈ ((cfg0.win 2).blk t).view.set := by
  have hi0 : (i 0).val < 1024 := (i 0).isLt
  have hi1 : (i 1).val < 4096 := (i 1).isLt
  obtain ⟨t, ht⟩ := blockOnto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

theorem value0 (c : Dev nD) :
    ((dat0 (F := Ideal) V c).arrAt 2 cfg0.N : Spec.Mat 1024 4096) = Spec.mm (V c main_arg1 : Spec.Mat 1024 128) (V c main_arg2 : Spec.Mat 128 4096) :=
  (dat0 (F := Ideal) V c).arrAt_eq_of_cover 2
    (Spec.mm (V c main_arg1 : Spec.Mat 1024 128) (V c main_arg2 : Spec.Mat 128 4096))
    (fun t _ => flushed0 V c t) covered0

end Cert.KernelIdeal.Hand

end
-- ==== Proof.KI.Val2.lean ====
import proofs.«134585_j83811991814293_1_alg».proof.Proof.KI.Reg2
import proofs.«134585_j83811991814293_1_alg».proof.Proof.Spec
import proofs.«134585_j83811991814293_1_alg».proof.Proof.LibDotPlain
import proofs.«134585_j83811991814293_1_alg».proof.Proof.KI.Val1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem blockIndex2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = win2_2.index t (1 : Fin 2) :=
  (by decide +kernel : ∀ t : Fin grid2.N, _)

theorem blockOnto2 : ∀ (i : Fin 4) (j : Fin 4), ∃ t : Fin cfg2.N, win2_2.index t = ![i.val, j.val] :=
  (by decide +kernel : ∀ (i : Fin 4) (j : Fin 4), ∃ t : Fin grid2.N, win2_2.index t = ![i.val, j.val])

abbrev kArr2 (c : Dev nD) : Spec.Mat 4096 128 := V c main_arg5
abbrev vtArr2 (c : Dev nD) : Spec.Mat 128 4096 := V c main_arg6

theorem flushed2 (c : Dev nD) (t : Fin cfg2.N) :
    (dat2 (F := Ideal) V c).flushed 2 t = ((cfg2.win 2).blk t).view.read (Elt Ideal)
      (Spec.mm (V c main_arg5 : Spec.Mat 4096 128) (V c main_arg6 : Spec.Mat 128 4096)) := by
  show (cfg2.win 2).cut (grid2.coords t) ((dat2 V c).after 2 t) = _
  rw [after2_W]
  unfold product1
  rw [View.canon_unit_zero zeroOffsets1]
  simp only [View.ld_unit_zero (S := S1024x128) zeroOffsets1, View.ld_unit_zero (S := S128x1024) zeroOffsets1]
  obtain ⟨e0, e1, e2, e3⟩ := blockIndex2 t
  funext j
  obtain ⟨p, q, rfl⟩ : ∃ (p : Fin 1024) (q : Fin 1024), j = ix2 p q := ⟨j 0, j 1, eq_ix2 j⟩
  show k1_pay1 (iblk2 V c 0 t) (iblk2 V c 1 t) (ix2 p q)
    = Spec.mm (V c main_arg5 : Spec.Mat 4096 128) (V c main_arg6 : Spec.Mat 128 4096) (((cfg2.win 2).blk t).view.emb (ix2 p q))
  refine (product_entry1 (iblk2 V c 0 t) (iblk2 V c 1 t) p q).trans ?_
  refine Finset.sum_congr rfl fun k _ => ?_
  have hK : ((cfg2.win 0).blk t).view.emb (ix2 p k)
      = ix2 (n0 := 4096) (n1 := 128) ((((cfg2.win 2).blk t).view.emb (ix2 p q)) 0) k := by
    funext a; apply Fin.ext
    match a with
    | ⟨0, _⟩ =>
      show win2_0.index t (0 : Fin 2) * 1024 + 1 * p.val = win2_2.index t (0 : Fin 2) * 1024 + 1 * p.val
      rw [e0]
    | ⟨1, _⟩ =>
      show win2_0.index t (1 : Fin 2) * 128 + 1 * k.val = k.val
      omega
  have hVt : ((cfg2.win 1).blk t).view.emb (ix2 k q)
      = ix2 (n0 := 128) (n1 := 4096) k ((((cfg2.win 2).blk t).view.emb (ix2 p q)) 1) := by
    funext a; apply Fin.ext
    match a with
    | ⟨0, _⟩ =>
      show win2_1.index t (0 : Fin 2) * 128 + 1 * k.val = k.val
      omega
    | ⟨1, _⟩ =>
      show win2_1.index t (1 : Fin 2) * 1024 + 1 * q.val = win2_2.index t (1 : Fin 2) * 1024 + 1 * q.val
      rw [e3]
  exact congrArg₂ (fun x y : EReal => x * y) (congrArg (kArr2 V c) hK) (congrArg (vtArr2 V c) hVt)

theorem mem_block2 (t : Fin cfg2.N) (i : S4096x4096.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v2).slice (win2_2.rect t)).set ↔ _
  rw [View.set_slice_whole, Rect.mem_set_unit]
  exact Iff.rfl

theorem covered2 (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  obtain ⟨t, ht⟩ := blockOnto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_block2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

theorem value2 (c : Dev nD) :
    ((dat2 (F := Ideal) V c).arrAt 2 cfg2.N : Spec.Mat 4096 4096) = Spec.mm (V c main_arg5 : Spec.Mat 4096 128) (V c main_arg6 : Spec.Mat 128 4096) :=
  (dat2 (F := Ideal) V c).arrAt_eq_of_cover 2
    (Spec.mm (V c main_arg5 : Spec.Mat 4096 128) (V c main_arg6 : Spec.Mat 128 4096))
    (fun t _ => flushed2 V c t) covered2

end Cert.KernelIdeal.Hand

end
-- ==== Proof.KI.Val3.lean ====
import proofs.«134585_j83811991814293_1_alg».proof.Proof.KI.Reg3
import proofs.«134585_j83811991814293_1_alg».proof.Proof.Spec
import proofs.«134585_j83811991814293_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeroOffsets3 : (![0, 0] : Fin 2 → Nat) = fun _ => 0 := funext fun a => by fin_cases a <;> rfl

theorem product_entry3 (kb : Vec Ideal S1024x128 .f32) (vtb : Vec Ideal S128x1000 .f32) (p : Fin 1024) (q : Fin 1000) :
    k3_pay1 kb vtb (ix2 p q) = ∑ k : Fin 128, kb (ix2 p k) * vtb (ix2 k q) := by
  unfold k3_pay1
  exact Cert.DotPlain.matmul_zero_rows_cols (φ₁ := .f32) (φ₂ := .f32) dot_S1024x128_S128x1000_S1024x1000_1_0_0_1_n_n
    rfl rfl rfl rfl rfl rfl none kb vtb p q

theorem blockIndex3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = win3_2.index t (1 : Fin 2) :=
  (by decide +kernel : ∀ t : Fin grid3.N, _)

theorem blockOnto3 : ∀ (i : Fin 4) (j : Fin 1), ∃ t : Fin cfg3.N, win3_2.index t = ![i.val, j.val] :=
  (by decide +kernel : ∀ (i : Fin 4) (j : Fin 1), ∃ t : Fin grid3.N, win3_2.index t = ![i.val, j.val])

abbrev kArr3 (c : Dev nD) : Spec.Mat 4096 128 := V c main_arg7
abbrev vtArr3 (c : Dev nD) : Spec.Mat 128 1000 := V c main_arg8

theorem flushed3 (c : Dev nD) (t : Fin cfg3.N) :
    (dat3 (F := Ideal) V c).flushed 2 t = ((cfg3.win 2).blk t).view.read (Elt Ideal)
      (Spec.mm (V c main_arg7 : Spec.Mat 4096 128) (V c main_arg8 : Spec.Mat 128 1000)) := by
  show (cfg3.win 2).cut (grid3.coords t) ((dat3 V c).after 2 t) = _
  rw [after3_W]
  unfold product3
  rw [View.canon_unit_zero zeroOffsets3]
  simp only [View.ld_unit_zero (S := S1024x128) zeroOffsets3, View.ld_unit_zero (S := S128x1000) zeroOffsets3]
  obtain ⟨e0, e1, e2, e3⟩ := blockIndex3 t
  funext j
  obtain ⟨p, q, rfl⟩ : ∃ (p : Fin 1024) (q : Fin 1000), j = ix2 p q := ⟨j 0, j 1, eq_ix2 j⟩
  show k3_pay1 (iblk3 V c 0 t) (iblk3 V c 1 t) (ix2 p q)
    = Spec.mm (V c main_arg7 : Spec.Mat 4096 128) (V c main_arg8 : Spec.Mat 128 1000) (((cfg3.win 2).blk t).view.emb (ix2 p q))
  refine (product_entry3 (iblk3 V c 0 t) (iblk3 V c 1 t) p q).trans ?_
  refine Finset.sum_congr rfl fun k _ => ?_
  have hK : ((cfg3.win 0).blk t).view.emb (ix2 p k)
      = ix2 (n0 := 4096) (n1 := 128) ((((cfg3.win 2).blk t).view.emb (ix2 p q)) 0) k := by
    funext a; apply Fin.ext
    match a with
    | ⟨0, _⟩ =>
      show win3_0.index t (0 : Fin 2) * 1024 + 1 * p.val = win3_2.index t (0 : Fin 2) * 1024 + 1 * p.val
      rw [e0]
    | ⟨1, _⟩ =>
      show win3_0.index t (1 : Fin 2) * 128 + 1 * k.val = k.val
      omega
  have hVt : ((cfg3.win 1).blk t).view.emb (ix2 k q)
      = ix2 (n0 := 128) (n1 := 1000) k ((((cfg3.win 2).blk t).view.emb (ix2 p q)) 1) := by
    funext a; apply Fin.ext
    match a with
    | ⟨0, _⟩ =>
      show win3_1.index t (0 : Fin 2) * 128 + 1 * k.val = k.val
      omega
    | ⟨1, _⟩ =>
      show win3_1.index t (1 : Fin 2) * 1000 + 1 * q.val = win3_2.index t (1 : Fin 2) * 1000 + 1 * q.val
      rw [e3]
  exact congrArg₂ (fun x y : EReal => x * y) (congrArg (kArr3 V c) hK) (congrArg (vtArr3 V c) hVt)

theorem mem_block3 (t : Fin cfg3.N) (i : S4096x1000.Idx) :
    i ∈ ((cfg3.win 2).blk t).view.set ↔ ∀ a : Fin 2, win3_2.index t a * S1024x1000.size a ≤ (i a).val
      ∧ (i a).val < win3_2.index t a * S1024x1000.size a + S1024x1000.size a := by
  show i ∈ ((View.whole main_v3).slice (win3_2.rect t)).set ↔ _
  rw [View.set_slice_whole, Rect.mem_set_unit]
  exact Iff.rfl

theorem covered3 (i : S4096x1000.Idx) :
    ∃ t : Fin cfg3.N, (cfg3.win 2).flush t = true ∧ i ∈ ((cfg3.win 2).blk t).view.set := by
  have hi0 : (i 0).val < 4096 := (i 0).isLt
  have hi1 : (i 1).val < 1000 := (i 1).isLt
  obtain ⟨t, ht⟩ := blockOnto3 ⟨(i 0).val / 1024, by omega⟩ ⟨(i 1).val / 1000, by omega⟩
  have q0 : win3_2.index t (0 : Fin 2) = (i 0).val / 1024 := congrFun ht 0
  have q1 : win3_2.index t (1 : Fin 2) = (i 1).val / 1000 := congrFun ht 1
  refine ⟨t, flush3_2 t, ?_⟩
  rw [mem_block3]
  intro a
  match a with
  | ⟨0, _⟩ =>
    show win3_2.index t (0 : Fin 2) * 1024 ≤ (i 0).val ∧ (i 0).val < win3_2.index t (0 : Fin 2) * 1024 + 1024
    omega
  | ⟨1, _⟩ =>
    show win3_2.index t (1 : Fin 2) * 1000 ≤ (i 1).val ∧ (i 1).val < win3_2.index t (1 : Fin 2) * 1000 + 1000
    omega

theorem value3 (c : Dev nD) :
    ((dat3 (F := Ideal) V c).arrAt 2 cfg3.N : Spec.Mat 4096 1000) = Spec.mm (V c main_arg7 : Spec.Mat 4096 128) (V c main_arg8 : Spec.Mat 128 1000) :=
  (dat3 (F := Ideal) V c).arrAt_eq_of_cover 2
    (Spec.mm (V c main_arg7 : Spec.Mat 4096 128) (V c main_arg8 : Spec.Mat 128 1000))
    (fun t _ => flushed3 V c t) covered3

end Cert.KernelIdeal.Hand

end
-- ==== Proof.KI.Acc4.lean ====
import proofs.«134585_j83811991814293_1_alg».proof.Proof.Gen.KernelIdeal.Skeleton
import proofs.«134585_j83811991814293_1_alg».proof.Proof.Spec
import proofs.«134585_j83811991814293_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

theorem pay1_4_apply (p q : Fin 1024) : k4_pay1 (F := Ideal) (ix2 p q) = 0 := by
  unfold k4_pay1
  rw [shapeCast_self]
  exact Ideal.ofBits_zero_f32

theorem pay2_4_apply (x : Vec Ideal S1024x1024 .f32) (w : Vec Ideal S1024x1024 .bf16) (s : Vec Ideal S1024x1024 .f32)
    (p q : Fin 1024) :
    k4_pay2 (F := Ideal) x w s (ix2 p q) = s (ix2 p q) + ∑ k : Fin 1024, x (ix2 p k) * w (ix2 k q) := by
  unfold k4_pay2
  rw [shapeCast_self, shapeCast_self w]
  exact congrArg (s (ix2 p q) + ·)
    (Cert.DotPlain.matmul_zero_rows_cols (φ₁ := .bf16) (φ₂ := .bf16) dot_S1024x1024_S1024x1024_S1024x1024_1_0_0_1_n_n
      rfl rfl rfl rfl rfl rfl none (truncf .bf16 x bitsLt_bf16_f32) w p q)

theorem pay3_4_apply (s : Vec Ideal S1024x1024 .f32) (p q : Fin 1024) :
    k4_pay3 (F := Ideal) s (ix2 p q) = max (s (ix2 p q)) 0 := by
  unfold k4_pay3
  exact congrArg (max (s (ix2 p q))) Ideal.ofBits_zero_f32

theorem acc1_4 (x : Vec Ideal S1024x1024 .f32) (w : Vec Ideal S1024x1024 .bf16) (p q : Fin 1024) :
    k4_pay3 (F := Ideal) (k4_pay2 (F := Ideal) x w (k4_pay1 (F := Ideal))) (ix2 p q)
      = max (∑ k : Fin 1024, x (ix2 p k) * w (ix2 k q)) 0 := by
  rw [pay3_4_apply, pay2_4_apply, pay1_4_apply, zero_add]

end Cert.KernelIdeal.Hand

end
-- ==== Proof.KI.Val4.lean ====
import proofs.«134585_j83811991814293_1_alg».proof.Proof.KI.Reg4
import proofs.«134585_j83811991814293_1_alg».proof.Proof.KI.Acc4
import proofs.«134585_j83811991814293_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

theorem tile_entry4 (X : Spec.Mat 8192 1024) (W : Spec.Mat 1024 4096) (a b : ℕ)
    (x : Vec Ideal S1024x1024 .f32) (w : Vec Ideal S1024x1024 .bf16)
    (hx : ∀ (p k : Fin 1024) (r : Fin 8192), r.val = 1024 * a + p.val → x (ix2 p k) = X (ix2 r k))
    (hw : ∀ (k q : Fin 1024) (s : Fin 4096), s.val = 1024 * b + q.val → w (ix2 k q) = W (ix2 k s))
    (j : S1024x1024.Idx) (i : S8192x4096.Idx)
    (h0 : (i 0).val = 1024 * a + (j 0).val) (h1 : (i 1).val = 1024 * b + (j 1).val) :
    k4_pay3 (F := Ideal) (k4_pay2 (F := Ideal) x w (k4_pay1 (F := Ideal))) j = Spec.relu (Spec.mm X W) i := by
  obtain ⟨p, q, rfl⟩ : ∃ (p q : Fin 1024), j = ix2 p q := ⟨j 0, j 1, eq_ix2 j⟩
  obtain ⟨r, s, rfl⟩ : ∃ (r : Fin 8192) (s : Fin 4096), i = ix2 r s := ⟨i 0, i 1, eq_ix2 i⟩
  rw [acc1_4, Spec.relu_apply, Spec.mm_apply]
  refine congrArg (max · 0) (Finset.sum_congr rfl fun k _ => ?_)
  rw [hx p k r h0, hw k q s h1]

variable (V : (c : Dev nD) → (b : Ref sig .tc) → Buf (Elt Ideal) ((c : Thread nD τ).loc b))

theorem tiles_at4 : ∀ t : Fin cfg4.N,
    win4_0.index t (0 : Fin 2) = t.val / 4 ∧ win4_0.index t (1 : Fin 2) = 0
    ∧ win4_1.index t (0 : Fin 2) = 0 ∧ win4_1.index t (1 : Fin 2) = t.val % 4
    ∧ win4_2.index t (0 : Fin 2) = t.val / 4 ∧ win4_2.index t (1 : Fin 2) = t.val % 4 :=
  (by decide +kernel : ∀ t : Fin grid4.N, _)

theorem xblk_apply (c : Dev nD) (t : Fin cfg4.N) (p k : Fin 1024) (r : Fin 8192)
    (hr : r.val = 1024 * (t.val / 4) + p.val) :
    (iblk4 V c 0 t : Spec.Mat 1024 1024) (ix2 p k) = (V c main_arg0 : Spec.Mat 8192 1024) (ix2 r k) := by
  obtain ⟨e0, e1, -, -, -, -⟩ := tiles_at4 t
  unfold iblk4
  rw [View.read_apply]
  show (V c main_arg0 : Spec.Mat 8192 1024) _ = _
  refine congrArg (V c main_arg0 : Spec.Mat 8192 1024) ?_
  funext ax
  apply Fin.ext
  match ax with
  | ⟨0, _⟩ => show win4_0.index t (0 : Fin 2) * 1024 + 1 * p.val = r.val; omega
  | ⟨1, _⟩ => show win4_0.index t (1 : Fin 2) * 1024 + 1 * k.val = k.val; omega

theorem wblk_apply (c : Dev nD) (t : Fin cfg4.N) (k q : Fin 1024) (s : Fin 4096)
    (hs : s.val = 1024 * (t.val % 4) + q.val) :
    (iblk4 V c 1 t : Spec.Mat 1024 1024) (ix2 k q) = (V c main_v0 : Spec.Mat 1024 4096) (ix2 k s) := by
  obtain ⟨-, -, e0, e1, -, -⟩ := tiles_at4 t
  unfold iblk4
  rw [View.read_apply]
  show (V c main_v0 : Spec.Mat 1024 4096) _ = _
  refine congrArg (V c main_v0 : Spec.Mat 1024 4096) ?_
  funext ax
  apply Fin.ext
  match ax with
  | ⟨0, _⟩ => show win4_1.index t (0 : Fin 2) * 1024 + 1 * k.val = k.val; omega
  | ⟨1, _⟩ => show win4_1.index t (1 : Fin 2) * 1024 + 1 * q.val = s.val; omega

theorem flushed4_eq (c : Dev nD) (t : Fin cfg4.N) :
    (dat4 (F := Ideal) V c).flushed 2 t
      = ((cfg4.win 2).blk t).view.read (Elt Ideal)
          (Spec.relu (Spec.mm (V c main_arg0 : Spec.Mat 8192 1024) (V c main_v0 : Spec.Mat 1024 4096))) := by
  show (cfg4.win 2).cut (grid4.coords t) ((dat4 (F := Ideal) V c).after 2 t) = _
  rw [after4_2]
  unfold out4_2
  rw [View.canon_unit_zero zeroOff4]
  obtain ⟨-, -, -, -, e0, e1⟩ := tiles_at4 t
  funext j
  show k4_pay3 (F := Ideal) (k4_pay2 (F := Ideal) (iblk4 V c 0 t) (iblk4 V c 1 t) (k4_pay1 (F := Ideal))) j
      = Spec.relu (Spec.mm (V c main_arg0 : Spec.Mat 8192 1024) (V c main_v0 : Spec.Mat 1024 4096))
          (((cfg4.win 2).blk t).view.emb j)
  refine tile_entry4 (V c main_arg0 : Spec.Mat 8192 1024) (V c main_v0 : Spec.Mat 1024 4096) (t.val / 4) (t.val % 4)
    (iblk4 V c 0 t) (iblk4 V c 1 t)
    (fun p k r hr => xblk_apply V c t p k r hr) (fun k q s hs => wblk_apply V c t k q s hs)
    j (((cfg4.win 2).blk t).view.emb j) ?_ ?_
  · show win4_2.index t (0 : Fin 2) * 1024 + 1 * (j 0).val = 1024 * (t.val / 4) + (j 0).val
    omega
  · show win4_2.index t (1 : Fin 2) * 1024 + 1 * (j 1).val = 1024 * (t.val % 4) + (j 1).val
    omega

theorem mem_blk4 (t : Fin cfg4.N) (i : S8192x4096.Idx) :
    i ∈ ((cfg4.win 2).blk t).view.set
      ↔ ∀ ax : Fin 2, win4_2.index t ax * S1024x1024.size ax ≤ (i ax).val
          ∧ (i ax).val < win4_2.index t ax * S1024x1024.size ax + S1024x1024.size ax := by
  show i ∈ ((View.whole main_v4).slice (win4_2.rect t)).set ↔ _
  rw [View.set_slice_whole, Rect.mem_set_unit]
  exact Iff.rfl

theorem blocks_cover4 (i : S8192x4096.Idx) :
    ∃ t : Fin cfg4.N, (cfg4.win 2).flush t = true ∧ i ∈ ((cfg4.win 2).blk t).view.set := by
  have hi0 : (i 0).val < 8192 := (i 0).isLt
  have hi1 : (i 1).val < 4096 := (i 1).isLt
  have hN : cfg4.N = 32 := N_4
  obtain ⟨t, ht⟩ : ∃ t : Fin cfg4.N, t.val = 4 * ((i 0).val / 1024) + (i 1).val / 1024 :=
    ⟨⟨4 * ((i 0).val / 1024) + (i 1).val / 1024, by rw [hN]; omega⟩, rfl⟩
  obtain ⟨-, -, -, -, e0, e1⟩ := tiles_at4 t
  refine ⟨t, flush4_2 t, ?_⟩
  rw [mem_blk4]
  intro ax
  match ax with
  | ⟨0, _⟩ =>
    show win4_2.index t (0 : Fin 2) * 1024 ≤ (i 0).val ∧ (i 0).val < win4_2.index t (0 : Fin 2) * 1024 + 1024
    omega
  | ⟨1, _⟩ =>
    show win4_2.index t (1 : Fin 2) * 1024 ≤ (i 1).val ∧ (i 1).val < win4_2.index t (1 : Fin 2) * 1024 + 1024
    omega

theorem value4 (c : Dev nD) :
    ((dat4 (F := Ideal) V c).arrAt 2 cfg4.N : Spec.Mat 8192 4096) = Spec.relu (Spec.mm (V c main_arg0 : Spec.Mat 8192 1024) (V c main_v0 : Spec.Mat 1024 4096)) :=
  (dat4 (F := Ideal) V c).arrAt_eq_of_cover 2
    (Spec.relu (Spec.mm (V c main_arg0 : Spec.Mat 8192 1024) (V c main_v0 : Spec.Mat 1024 4096)))
    (fun t _ => flushed4_eq V c t) blocks_cover4

end Cert.KernelIdeal.Hand

end
-- ==== Proof.KI.Acc5.lean ====
import proofs.«134585_j83811991814293_1_alg».proof.Proof.Gen.KernelIdeal.Skeleton
import proofs.«134585_j83811991814293_1_alg».proof.Proof.Spec
import proofs.«134585_j83811991814293_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

theorem pay1_5_apply (p q : Fin 1024) : k5_pay1 (F := Ideal) (ix2 p q) = 0 := by
  unfold k5_pay1
  rw [shapeCast_self]
  exact Ideal.ofBits_zero_f32

theorem pay2_5_apply (z : Vec Ideal S1024x1024 .bf16) (w : Vec Ideal S1024x1024 .bf16) (s : Vec Ideal S1024x1024 .f32)
    (p q : Fin 1024) :
    k5_pay2 (F := Ideal) z w s (ix2 p q) = s (ix2 p q) + ∑ k : Fin 1024, z (ix2 p k) * w (ix2 k q) := by
  unfold k5_pay2
  rw [shapeCast_self, shapeCast_self z, shapeCast_self w]
  exact congrArg (s (ix2 p q) + ·)
    (Cert.DotPlain.matmul_zero_rows_cols (φ₁ := .bf16) (φ₂ := .bf16) dot_S1024x1024_S1024x1024_S1024x1024_1_0_0_1_n_n
      rfl rfl rfl rfl rfl rfl none z w p q)

theorem pay3_5_apply (s : Vec Ideal S1024x1024 .f32) (p q : Fin 1024) :
    k5_pay3 (F := Ideal) s (ix2 p q) = max (s (ix2 p q)) 0 := by
  unfold k5_pay3
  exact congrArg (max (s (ix2 p q))) Ideal.ofBits_zero_f32

theorem acc4_5 (z w : Fin 4 → Vec Ideal S1024x1024 .bf16) (acc : Fin 4 → Vec Ideal S1024x1024 .f32)
    (h0 : acc 0 = k5_pay2 (z 0) (w 0) (k5_pay1 (F := Ideal)))
    (hs : ∀ k : Fin 3, acc k.succ = k5_pay2 (z k.succ) (w k.succ) (acc k.castSucc)) (p q : Fin 1024) :
    acc 3 (ix2 p q) = ∑ b : Fin 4, ∑ k : Fin 1024, z b (ix2 p k) * w b (ix2 k q) := by
  have e1 : acc 1 = k5_pay2 (z 1) (w 1) (acc 0) := hs 0
  have e2 : acc 2 = k5_pay2 (z 2) (w 2) (acc 1) := hs 1
  have e3 : acc 3 = k5_pay2 (z 3) (w 3) (acc 2) := hs 2
  rw [Fin.sum_univ_four, e3, pay2_5_apply, e2, pay2_5_apply, e1, pay2_5_apply, h0, pay2_5_apply, pay1_5_apply, zero_add]

end Cert.KernelIdeal.Hand

end
-- ==== Proof.LibBlockSum.lean ====
import Mathlib.Algebra.BigOperators.Group.Finset.Basic
import Mathlib.Algebra.BigOperators.Fin
import Mathlib.Data.Fintype.BigOperators

namespace Cert.BlockSum

open scoped BigOperators

def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

end Cert.BlockSum
-- ==== Proof.KI.Val5.lean ====
import proofs.«134585_j83811991814293_1_alg».proof.Proof.KI.Reg5
import proofs.«134585_j83811991814293_1_alg».proof.Proof.KI.Acc5
import proofs.«134585_j83811991814293_1_alg».proof.Proof.Spec
import proofs.«134585_j83811991814293_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem block_at5 : ∀ t : Fin cfg5.N,
    win5_0.index t (0 : Fin 2) = t.val / 16 ∧ win5_0.index t (1 : Fin 2) = t.val % 4
    ∧ win5_1.index t (0 : Fin 2) = t.val % 4 ∧ win5_1.index t (1 : Fin 2) = t.val / 4 % 4
    ∧ win5_2.index t (0 : Fin 2) = t.val / 16 ∧ win5_2.index t (1 : Fin 2) = t.val / 4 % 4 :=
  (by decide +kernel : ∀ t : Fin grid5.N, _)

theorem zblk5_apply (c : Dev nD) (t : Fin cfg5.N) (p k : Fin 1024) (r : Fin 8192) (n : Fin 4096)
    (hr : r.val = 1024 * (t.val / 16) + p.val) (hn : n.val = 1024 * (t.val % 4) + k.val) :
    (iblk5 V c 0 t : Spec.Mat 1024 1024) (ix2 p k) = (V c main_v4 : Spec.Mat 8192 4096) (ix2 r n) := by
  obtain ⟨e0, e1, -, -, -, -⟩ := block_at5 t
  unfold iblk5
  rw [View.read_apply]
  show (V c main_v4 : Spec.Mat 8192 4096) _ = _
  refine congrArg (V c main_v4 : Spec.Mat 8192 4096) ?_
  funext a
  apply Fin.ext
  match a with
  | ⟨0, _⟩ => show win5_0.index t (0 : Fin 2) * 1024 + 1 * p.val = r.val; omega
  | ⟨1, _⟩ => show win5_0.index t (1 : Fin 2) * 1024 + 1 * k.val = n.val; omega

theorem wblk5_apply (c : Dev nD) (t : Fin cfg5.N) (k q : Fin 1024) (n : Fin 4096) (s : Fin 4096)
    (hn : n.val = 1024 * (t.val % 4) + k.val) (hs : s.val = 1024 * (t.val / 4 % 4) + q.val) :
    (iblk5 V c 1 t : Spec.Mat 1024 1024) (ix2 k q) = (V c main_v1 : Spec.Mat 4096 4096) (ix2 n s) := by
  obtain ⟨-, -, e0, e1, -, -⟩ := block_at5 t
  unfold iblk5
  rw [View.read_apply]
  show (V c main_v1 : Spec.Mat 4096 4096) _ = _
  refine congrArg (V c main_v1 : Spec.Mat 4096 4096) ?_
  funext a
  apply Fin.ext
  match a with
  | ⟨0, _⟩ => show win5_1.index t (0 : Fin 2) * 1024 + 1 * k.val = n.val; omega
  | ⟨1, _⟩ => show win5_1.index t (1 : Fin 2) * 1024 + 1 * q.val = s.val; omega

theorem sum_over_blocks5 (Z : Spec.Mat 8192 4096) (W : Spec.Mat 4096 4096) (r : Fin 8192) (s : Fin 4096) :
    ∑ b : Fin 4, ∑ k : Fin 1024, Z (ix2 r (Cert.BlockSum.pos (B := 4) (R := 1024) (N := 4096) rfl b k))
        * W (ix2 (Cert.BlockSum.pos (B := 4) (R := 1024) (N := 4096) rfl b k) s)
      = ∑ n : Fin 4096, Z (ix2 r n) * W (ix2 n s) :=
  Cert.BlockSum.sum_blocks (B := 4) (R := 1024) (N := 4096) rfl (fun n => Z (ix2 r n) * W (ix2 n s))

theorem accAt5_congr (c : Dev nD) (n n' : ℕ) (hn : n < cfg5.N) (hn' : n' < cfg5.N) (e : n = n') :
    accAt5 V c n hn = accAt5 V c n' hn' := by
  subst e; rfl

def runPt5 (t : Fin cfg5.N) (h3 : t.val % 4 = 3) (b : Fin 4) : Fin cfg5.N :=
  ⟨t.val - 3 + b.val, by have := t.isLt; have := b.isLt; omega⟩

theorem acc_last5 (c : Dev nD) (t : Fin cfg5.N) (h3 : t.val % 4 = 3) (p q : Fin 1024) (r : Fin 8192) (s : Fin 4096)
    (hr : r.val = 1024 * (t.val / 16) + p.val) (hs : s.val = 1024 * (t.val / 4 % 4) + q.val) :
    accAt5 V c t.val t.isLt (ix2 p q)
      = Spec.mm (V c main_v4 : Spec.Mat 8192 4096) (V c main_v1 : Spec.Mat 4096 4096) (ix2 r s) := by
  have hlast : accAt5 V c t.val t.isLt = accAt5 V c (runPt5 t h3 3).val (runPt5 t h3 3).isLt :=
    accAt5_congr V c _ _ _ _ (by show t.val = t.val - 3 + 3; omega)
  have h0 : accAt5 V c (runPt5 t h3 0).val (runPt5 t h3 0).isLt
      = k5_pay2 (iblk5 V c 0 (runPt5 t h3 0)) (iblk5 V c 1 (runPt5 t h3 0)) (k5_pay1 (F := Ideal)) :=
    accAt5_first V c (runPt5 t h3 0) (by show (t.val - 3 + 0) % 4 = 0; omega)
  have hstep : ∀ k : Fin 3, accAt5 V c (runPt5 t h3 k.succ).val (runPt5 t h3 k.succ).isLt
      = k5_pay2 (iblk5 V c 0 (runPt5 t h3 k.succ)) (iblk5 V c 1 (runPt5 t h3 k.succ))
          (accAt5 V c (runPt5 t h3 k.castSucc).val (runPt5 t h3 k.castSucc).isLt) := fun k => by
    have hk := k.isLt
    rw [accAt5_next V c (runPt5 t h3 k.succ) (by show (t.val - 3 + (k.val + 1)) % 4 ≠ 0; omega)]
    exact congrArg (k5_pay2 (iblk5 V c 0 (runPt5 t h3 k.succ)) (iblk5 V c 1 (runPt5 t h3 k.succ)))
      (accAt5_congr V c _ _ _ _ (by show t.val - 3 + (k.val + 1) - 1 = t.val - 3 + k.val; omega))
  rw [hlast, Spec.mm_apply]
  refine (acc4_5 (fun b => iblk5 V c 0 (runPt5 t h3 b)) (fun b => iblk5 V c 1 (runPt5 t h3 b))
    (fun b => accAt5 V c (runPt5 t h3 b).val (runPt5 t h3 b).isLt) h0 hstep p q).trans ?_
  refine Eq.trans ?_ (sum_over_blocks5 (V c main_v4) (V c main_v1) r s)
  refine Finset.sum_congr rfl fun b _ => Finset.sum_congr rfl fun k _ => ?_
  have hb := b.isLt
  have e16 : (runPt5 t h3 b).val / 16 = t.val / 16 := by show (t.val - 3 + b.val) / 16 = t.val / 16; omega
  have e4 : (runPt5 t h3 b).val % 4 = b.val := by show (t.val - 3 + b.val) % 4 = b.val; omega
  have e44 : (runPt5 t h3 b).val / 4 % 4 = t.val / 4 % 4 := by show (t.val - 3 + b.val) / 4 % 4 = t.val / 4 % 4; omega
  have hpos : (Cert.BlockSum.pos (B := 4) (R := 1024) (N := 4096) rfl b k).val = 1024 * b.val + k.val := rfl
  exact congrArg₂ (fun x y : EReal => x * y)
    (zblk5_apply V c (runPt5 t h3 b) p k r (Cert.BlockSum.pos rfl b k) (by rw [e16]; exact hr) (by rw [e4]; exact hpos))
    (wblk5_apply V c (runPt5 t h3 b) k q (Cert.BlockSum.pos rfl b k) s (by rw [e4]; exact hpos) (by rw [e44]; exact hs))

theorem out_entry5 (c : Dev nD) (t : Fin cfg5.N) (h3 : t.val % 4 = 3) (j : S1024x1024.Idx) (i : S8192x4096.Idx)
    (h0 : (i 0).val = 1024 * (t.val / 16) + (j 0).val) (h1 : (i 1).val = 1024 * (t.val / 4 % 4) + (j 1).val) :
    k5_pay3 (F := Ideal) (accAt5 V c t.val t.isLt) j
      = Spec.relu (Spec.mm (V c main_v4 : Spec.Mat 8192 4096) (V c main_v1 : Spec.Mat 4096 4096)) i := by
  obtain ⟨p, q, rfl⟩ : ∃ (p q : Fin 1024), j = ix2 p q := ⟨j 0, j 1, eq_ix2 j⟩
  obtain ⟨r, s, rfl⟩ : ∃ (r : Fin 8192) (s : Fin 4096), i = ix2 r s := ⟨i 0, i 1, eq_ix2 i⟩
  rw [pay3_5_apply, Spec.relu_apply]
  exact congrArg (max · 0) (acc_last5 V c t h3 p q r s h0 h1)

theorem flushed5_eq (c : Dev nD) (t : Fin cfg5.N) (hf : (cfg5.win 2).flush t = true) :
    (dat5 (F := Ideal) V c).flushed 2 t
      = ((cfg5.win 2).blk t).view.read (Elt Ideal)
          (Spec.relu (Spec.mm (V c main_v4 : Spec.Mat 8192 4096) (V c main_v1 : Spec.Mat 4096 4096))) := by
  have h3 : t.val % 4 = 3 := (flush5_2 t).mp hf
  obtain ⟨-, -, -, -, e0, e1⟩ := block_at5 t
  show (cfg5.win 2).cut (grid5.coords t) ((dat5 (F := Ideal) V c).after 2 t) = _
  rw [after5_2]
  funext j
  show k5_pay3 (F := Ideal) (accAt5 V c t.val t.isLt) j
      = Spec.relu (Spec.mm (V c main_v4 : Spec.Mat 8192 4096) (V c main_v1 : Spec.Mat 4096 4096))
          (((cfg5.win 2).blk t).view.emb j)
  refine out_entry5 V c t h3 j (((cfg5.win 2).blk t).view.emb j) ?_ ?_
  · show win5_2.index t (0 : Fin 2) * 1024 + 1 * (j 0).val = 1024 * (t.val / 16) + (j 0).val
    omega
  · show win5_2.index t (1 : Fin 2) * 1024 + 1 * (j 1).val = 1024 * (t.val / 4 % 4) + (j 1).val
    omega

theorem mem_blk5 (t : Fin cfg5.N) (i : S8192x4096.Idx) :
    i ∈ ((cfg5.win 2).blk t).view.set
      ↔ ∀ a : Fin 2, win5_2.index t a * S1024x1024.size a ≤ (i a).val
          ∧ (i a).val < win5_2.index t a * S1024x1024.size a + S1024x1024.size a := by
  show i ∈ ((View.whole main_v5).slice (win5_2.rect t)).set ↔ _
  rw [View.set_slice_whole, Rect.mem_set_unit]
  exact Iff.rfl

theorem blocks_cover5 (i : S8192x4096.Idx) :
    ∃ t : Fin cfg5.N, (cfg5.win 2).flush t = true ∧ i ∈ ((cfg5.win 2).blk t).view.set := by
  have hi0 : (i 0).val < 8192 := (i 0).isLt
  have hi1 : (i 1).val < 4096 := (i 1).isLt
  have hN : cfg5.N = 128 := N_5
  obtain ⟨t, ht⟩ : ∃ t : Fin cfg5.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, e0, e1⟩ := block_at5 t
  refine ⟨t, (flush5_2 t).mpr (by omega), ?_⟩
  rw [mem_blk5]
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 1024 ≤ (i 1).val ∧ (i 1).val < win5_2.index t (1 : Fin 2) * 1024 + 1024
    omega

theorem value5 (c : Dev nD) :
    ((dat5 (F := Ideal) V c).arrAt 2 cfg5.N : Spec.Mat 8192 4096) = Spec.relu (Spec.mm (V c main_v4 : Spec.Mat 8192 4096) (V c main_v1 : Spec.Mat 4096 4096)) :=
  (dat5 (F := Ideal) V c).arrAt_eq_of_cover 2 (Spec.relu (Spec.mm (V c main_v4 : Spec.Mat 8192 4096) (V c main_v1 : Spec.Mat 4096 4096)))
    (fun t hf => flushed5_eq V c t hf) blocks_cover5

end Cert.KernelIdeal.Hand

end
-- ==== Proof.KI.Val6.lean ====
import proofs.«134585_j83811991814293_1_alg».proof.Proof.KI.Reg6
import proofs.«134585_j83811991814293_1_alg».proof.Proof.KI.Acc5
import proofs.«134585_j83811991814293_1_alg».proof.Proof.Spec
import proofs.«134585_j83811991814293_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem block_at6 : ∀ t : Fin cfg6.N,
    win6_0.index t (0 : Fin 2) = t.val / 16 ∧ win6_0.index t (1 : Fin 2) = t.val % 4
    ∧ win6_1.index t (0 : Fin 2) = t.val % 4 ∧ win6_1.index t (1 : Fin 2) = t.val / 4 % 4
    ∧ win6_2.index t (0 : Fin 2) = t.val / 16 ∧ win6_2.index t (1 : Fin 2) = t.val / 4 % 4 :=
  (by decide +kernel : ∀ t : Fin grid6.N, _)

theorem zblk6_apply (c : Dev nD) (t : Fin cfg6.N) (p k : Fin 1024) (r : Fin 8192) (n : Fin 4096)
    (hr : r.val = 1024 * (t.val / 16) + p.val) (hn : n.val = 1024 * (t.val % 4) + k.val) :
    (iblk6 V c 0 t : Spec.Mat 1024 1024) (ix2 p k) = (V c main_v5 : Spec.Mat 8192 4096) (ix2 r n) := by
  obtain ⟨e0, e1, -, -, -, -⟩ := block_at6 t
  unfold iblk6
  rw [View.read_apply]
  show (V c main_v5 : Spec.Mat 8192 4096) _ = _
  refine congrArg (V c main_v5 : Spec.Mat 8192 4096) ?_
  funext a
  apply Fin.ext
  match a with
  | ⟨0, _⟩ => show win6_0.index t (0 : Fin 2) * 1024 + 1 * p.val = r.val; omega
  | ⟨1, _⟩ => show win6_0.index t (1 : Fin 2) * 1024 + 1 * k.val = n.val; omega

theorem wblk6_apply (c : Dev nD) (t : Fin cfg6.N) (k q : Fin 1024) (n : Fin 4096) (s : Fin 4096)
    (hn : n.val = 1024 * (t.val % 4) + k.val) (hs : s.val = 1024 * (t.val / 4 % 4) + q.val) :
    (iblk6 V c 1 t : Spec.Mat 1024 1024) (ix2 k q) = (V c main_v2 : Spec.Mat 4096 4096) (ix2 n s) := by
  obtain ⟨-, -, e0, e1, -, -⟩ := block_at6 t
  unfold iblk6
  rw [View.read_apply]
  show (V c main_v2 : Spec.Mat 4096 4096) _ = _
  refine congrArg (V c main_v2 : Spec.Mat 4096 4096) ?_
  funext a
  apply Fin.ext
  match a with
  | ⟨0, _⟩ => show win6_1.index t (0 : Fin 2) * 1024 + 1 * k.val = n.val; omega
  | ⟨1, _⟩ => show win6_1.index t (1 : Fin 2) * 1024 + 1 * q.val = s.val; omega

theorem sum_over_blocks6 (Z : Spec.Mat 8192 4096) (W : Spec.Mat 4096 4096) (r : Fin 8192) (s : Fin 4096) :
    ∑ b : Fin 4, ∑ k : Fin 1024, Z (ix2 r (Cert.BlockSum.pos (B := 4) (R := 1024) (N := 4096) rfl b k))
        * W (ix2 (Cert.BlockSum.pos (B := 4) (R := 1024) (N := 4096) rfl b k) s)
      = ∑ n : Fin 4096, Z (ix2 r n) * W (ix2 n s) :=
  Cert.BlockSum.sum_blocks (B := 4) (R := 1024) (N := 4096) rfl (fun n => Z (ix2 r n) * W (ix2 n s))

theorem accAt6_congr (c : Dev nD) (n n' : ℕ) (hn : n < cfg6.N) (hn' : n' < cfg6.N) (e : n = n') :
    accAt6 V c n hn = accAt6 V c n' hn' := by
  subst e; rfl

def runPt6 (t : Fin cfg6.N) (h3 : t.val % 4 = 3) (b : Fin 4) : Fin cfg6.N :=
  ⟨t.val - 3 + b.val, by have := t.isLt; have := b.isLt; omega⟩

theorem acc_last6 (c : Dev nD) (t : Fin cfg6.N) (h3 : t.val % 4 = 3) (p q : Fin 1024) (r : Fin 8192) (s : Fin 4096)
    (hr : r.val = 1024 * (t.val / 16) + p.val) (hs : s.val = 1024 * (t.val / 4 % 4) + q.val) :
    accAt6 V c t.val t.isLt (ix2 p q)
      = Spec.mm (V c main_v5 : Spec.Mat 8192 4096) (V c main_v2 : Spec.Mat 4096 4096) (ix2 r s) := by
  have hlast : accAt6 V c t.val t.isLt = accAt6 V c (runPt6 t h3 3).val (runPt6 t h3 3).isLt :=
    accAt6_congr V c _ _ _ _ (by show t.val = t.val - 3 + 3; omega)
  have h0 : accAt6 V c (runPt6 t h3 0).val (runPt6 t h3 0).isLt
      = k5_pay2 (iblk6 V c 0 (runPt6 t h3 0)) (iblk6 V c 1 (runPt6 t h3 0)) (k5_pay1 (F := Ideal)) :=
    accAt6_first V c (runPt6 t h3 0) (by show (t.val - 3 + 0) % 4 = 0; omega)
  have hstep : ∀ k : Fin 3, accAt6 V c (runPt6 t h3 k.succ).val (runPt6 t h3 k.succ).isLt
      = k5_pay2 (iblk6 V c 0 (runPt6 t h3 k.succ)) (iblk6 V c 1 (runPt6 t h3 k.succ))
          (accAt6 V c (runPt6 t h3 k.castSucc).val (runPt6 t h3 k.castSucc).isLt) := fun k => by
    have hk := k.isLt
    rw [accAt6_next V c (runPt6 t h3 k.succ) (by show (t.val - 3 + (k.val + 1)) % 4 ≠ 0; omega)]
    exact congrArg (k5_pay2 (iblk6 V c 0 (runPt6 t h3 k.succ)) (iblk6 V c 1 (runPt6 t h3 k.succ)))
      (accAt6_congr V c _ _ _ _ (by show t.val - 3 + (k.val + 1) - 1 = t.val - 3 + k.val; omega))
  rw [hlast, Spec.mm_apply]
  refine (acc4_5 (fun b => iblk6 V c 0 (runPt6 t h3 b)) (fun b => iblk6 V c 1 (runPt6 t h3 b))
    (fun b => accAt6 V c (runPt6 t h3 b).val (runPt6 t h3 b).isLt) h0 hstep p q).trans ?_
  refine Eq.trans ?_ (sum_over_blocks6 (V c main_v5) (V c main_v2) r s)
  refine Finset.sum_congr rfl fun b _ => Finset.sum_congr rfl fun k _ => ?_
  have hb := b.isLt
  have e16 : (runPt6 t h3 b).val / 16 = t.val / 16 := by show (t.val - 3 + b.val) / 16 = t.val / 16; omega
  have e4 : (runPt6 t h3 b).val % 4 = b.val := by show (t.val - 3 + b.val) % 4 = b.val; omega
  have e44 : (runPt6 t h3 b).val / 4 % 4 = t.val / 4 % 4 := by show (t.val - 3 + b.val) / 4 % 4 = t.val / 4 % 4; omega
  have hpos : (Cert.BlockSum.pos (B := 4) (R := 1024) (N := 4096) rfl b k).val = 1024 * b.val + k.val := rfl
  exact congrArg₂ (fun x y : EReal => x * y)
    (zblk6_apply V c (runPt6 t h3 b) p k r (Cert.BlockSum.pos rfl b k) (by rw [e16]; exact hr) (by rw [e4]; exact hpos))
    (wblk6_apply V c (runPt6 t h3 b) k q (Cert.BlockSum.pos rfl b k) s (by rw [e4]; exact hpos) (by rw [e44]; exact hs))

theorem out_entry6 (c : Dev nD) (t : Fin cfg6.N) (h3 : t.val % 4 = 3) (j : S1024x1024.Idx) (i : S8192x4096.Idx)
    (h0 : (i 0).val = 1024 * (t.val / 16) + (j 0).val) (h1 : (i 1).val = 1024 * (t.val / 4 % 4) + (j 1).val) :
    k5_pay3 (F := Ideal) (accAt6 V c t.val t.isLt) j
      = Spec.relu (Spec.mm (V c main_v5 : Spec.Mat 8192 4096) (V c main_v2 : Spec.Mat 4096 4096)) i := by
  obtain ⟨p, q, rfl⟩ : ∃ (p q : Fin 1024), j = ix2 p q := ⟨j 0, j 1, eq_ix2 j⟩
  obtain ⟨r, s, rfl⟩ : ∃ (r : Fin 8192) (s : Fin 4096), i = ix2 r s := ⟨i 0, i 1, eq_ix2 i⟩
  rw [pay3_5_apply, Spec.relu_apply]
  exact congrArg (max · 0) (acc_last6 V c t h3 p q r s h0 h1)

theorem flushed6_eq (c : Dev nD) (t : Fin cfg6.N) (hf : (cfg6.win 2).flush t = true) :
    (dat6 (F := Ideal) V c).flushed 2 t
      = ((cfg6.win 2).blk t).view.read (Elt Ideal)
          (Spec.relu (Spec.mm (V c main_v5 : Spec.Mat 8192 4096) (V c main_v2 : Spec.Mat 4096 4096))) := by
  have h3 : t.val % 4 = 3 := (flush6_2 t).mp hf
  obtain ⟨-, -, -, -, e0, e1⟩ := block_at6 t
  show (cfg6.win 2).cut (grid6.coords t) ((dat6 (F := Ideal) V c).after 2 t) = _
  rw [after6_2]
  funext j
  show k5_pay3 (F := Ideal) (accAt6 V c t.val t.isLt) j
      = Spec.relu (Spec.mm (V c main_v5 : Spec.Mat 8192 4096) (V c main_v2 : Spec.Mat 4096 4096))
          (((cfg6.win 2).blk t).view.emb j)
  refine out_entry6 V c t h3 j (((cfg6.win 2).blk t).view.emb j) ?_ ?_
  · show win6_2.index t (0 : Fin 2) * 1024 + 1 * (j 0).val = 1024 * (t.val / 16) + (j 0).val
    omega
  · show win6_2.index t (1 : Fin 2) * 1024 + 1 * (j 1).val = 1024 * (t.val / 4 % 4) + (j 1).val
    omega

theorem mem_blk6 (t : Fin cfg6.N) (i : S8192x4096.Idx) :
    i ∈ ((cfg6.win 2).blk t).view.set
      ↔ ∀ a : Fin 2, win6_2.index t a * S1024x1024.size a ≤ (i a).val
          ∧ (i a).val < win6_2.index t a * S1024x1024.size a + S1024x1024.size a := by
  show i ∈ ((View.whole main_v6).slice (win6_2.rect t)).set ↔ _
  rw [View.set_slice_whole, Rect.mem_set_unit]
  exact Iff.rfl

theorem blocks_cover6 (i : S8192x4096.Idx) :
    ∃ t : Fin cfg6.N, (cfg6.win 2).flush t = true ∧ i ∈ ((cfg6.win 2).blk t).view.set := by
  have hi0 : (i 0).val < 8192 := (i 0).isLt
  have hi1 : (i 1).val < 4096 := (i 1).isLt
  have hN : cfg6.N = 128 := N_6
  obtain ⟨t, ht⟩ : ∃ t : Fin cfg6.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, e0, e1⟩ := block_at6 t
  refine ⟨t, (flush6_2 t).mpr (by omega), ?_⟩
  rw [mem_blk6]
  intro a
  match a with
  | ⟨0, _⟩ =>
    show win6_2.index t (0 : Fin 2) * 1024 ≤ (i 0).val ∧ (i 0).val < win6_2.index t (0 : Fin 2) * 1024 + 1024
    omega
  | ⟨1, _⟩ =>
    show win6_2.index t (1 : Fin 2) * 1024 ≤ (i 1).val ∧ (i 1).val < win6_2.index t (1 : Fin 2) * 1024 + 1024
    omega

theorem value6 (c : Dev nD) :
    ((dat6 (F := Ideal) V c).arrAt 2 cfg6.N : Spec.Mat 8192 4096) = Spec.relu (Spec.mm (V c main_v5 : Spec.Mat 8192 4096) (V c main_v2 : Spec.Mat 4096 4096)) :=
  (dat6 (F := Ideal) V c).arrAt_eq_of_cover 2 (Spec.relu (Spec.mm (V c main_v5 : Spec.Mat 8192 4096) (V c main_v2 : Spec.Mat 4096 4096)))
    (fun t hf => flushed6_eq V c t hf) blocks_cover6

end Cert.KernelIdeal.Hand

end
-- ==== Proof.KI.Acc7.lean ====
import proofs.«134585_j83811991814293_1_alg».proof.Proof.Gen.KernelIdeal.Skeleton
import proofs.«134585_j83811991814293_1_alg».proof.Proof.Spec
import proofs.«134585_j83811991814293_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

theorem pay1_7_apply (p : Fin 1024) (q : Fin 1000) : k7_pay1 (F := Ideal) (ix2 p q) = 0 := by
  unfold k7_pay1
  rw [shapeCast_self]
  exact Ideal.ofBits_zero_f32

theorem pay2_7_apply (z : Vec Ideal S1024x1024 .bf16) (w : Vec Ideal S1024x1000 .bf16) (s : Vec Ideal S1024x1000 .f32)
    (p : Fin 1024) (q : Fin 1000) :
    k7_pay2 (F := Ideal) z w s (ix2 p q) = s (ix2 p q) + ∑ k : Fin 1024, z (ix2 p k) * w (ix2 k q) := by
  unfold k7_pay2
  rw [shapeCast_self, shapeCast_self z, shapeCast_self w]
  exact congrArg (s (ix2 p q) + ·)
    (Cert.DotPlain.matmul_zero_rows_cols (φ₁ := .bf16) (φ₂ := .bf16) dot_S1024x1024_S1024x1000_S1024x1000_1_0_0_1_n_n
      rfl rfl rfl rfl rfl rfl none z w p q)

theorem acc4_7 (z : Fin 4 → Vec Ideal S1024x1024 .bf16) (w : Fin 4 → Vec Ideal S1024x1000 .bf16)
    (acc : Fin 4 → Vec Ideal S1024x1000 .f32)
    (h0 : acc 0 = k7_pay2 (z 0) (w 0) (k7_pay1 (F := Ideal)))
    (hs : ∀ k : Fin 3, acc k.succ = k7_pay2 (z k.succ) (w k.succ) (acc k.castSucc)) (p : Fin 1024) (q : Fin 1000) :
    acc 3 (ix2 p q) = ∑ b : Fin 4, ∑ k : Fin 1024, z b (ix2 p k) * w b (ix2 k q) := by
  have e1 : acc 1 = k7_pay2 (z 1) (w 1) (acc 0) := hs 0
  have e2 : acc 2 = k7_pay2 (z 2) (w 2) (acc 1) := hs 1
  have e3 : acc 3 = k7_pay2 (z 3) (w 3) (acc 2) := hs 2
  rw [Fin.sum_univ_four, e3, pay2_7_apply, e2, pay2_7_apply, e1, pay2_7_apply, h0, pay2_7_apply, pay1_7_apply, zero_add]

end Cert.KernelIdeal.Hand

end
-- ==== Proof.KI.Val7.lean ====
import proofs.«134585_j83811991814293_1_alg».proof.Proof.KI.Reg7
import proofs.«134585_j83811991814293_1_alg».proof.Proof.KI.Acc7
import proofs.«134585_j83811991814293_1_alg».proof.Proof.Spec
import proofs.«134585_j83811991814293_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

def pt7 (i : Fin 8) (b : Fin 4) : Fin cfg7.N :=
  ⟨4 * i.val + b.val, by rw [show cfg7.N = 32 from N_7]; have := i.isLt; have := b.isLt; omega⟩

theorem pt7_val (i : Fin 8) (b : Fin 4) : (pt7 i b).val = 4 * i.val + b.val := rfl
theorem pt7_div (i : Fin 8) (b : Fin 4) : (pt7 i b).val / 4 = i.val := by
  have := b.isLt; rw [pt7_val]; omega
theorem pt7_mod (i : Fin 8) (b : Fin 4) : (pt7 i b).val % 4 = b.val := by
  have := b.isLt; rw [pt7_val]; omega

theorem index_at7 : ∀ t : Fin cfg7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = t.val / 4 ∧ win7_2.index t (1 : Fin 2) = 0 :=
  (by decide +kernel : ∀ t : Fin grid7.N, _)

theorem block_at7 (i : Fin 8) (b : Fin 4) :
    win7_0.index (pt7 i b) (0 : Fin 2) = i.val ∧ win7_0.index (pt7 i b) (1 : Fin 2) = b.val
    ∧ win7_1.index (pt7 i b) (0 : Fin 2) = b.val ∧ win7_1.index (pt7 i b) (1 : Fin 2) = 0
    ∧ win7_2.index (pt7 i b) (0 : Fin 2) = i.val ∧ win7_2.index (pt7 i b) (1 : Fin 2) = 0 := by
  have h := index_at7 (pt7 i b)
  rw [pt7_div, pt7_mod] at h
  exact h

theorem accAt7_congr (c : Dev nD) {n n' : ℕ} (e : n = n') (h : n < cfg7.N) (h' : n' < cfg7.N) :
    accAt7 V c n h = accAt7 V c n' h' := by
  subst e; rfl

theorem zblk7_apply (c : Dev nD) (i : Fin 8) (b : Fin 4) (p k : Fin 1024) (r : Fin 8192) (n : Fin 4096)
    (hr : r.val = 1024 * i.val + p.val) (hn : n.val = 1024 * b.val + k.val) :
    (iblk7 V c 0 (pt7 i b) : Spec.Mat 1024 1024) (ix2 p k) = (V c main_v6 : Spec.Mat 8192 4096) (ix2 r n) := by
  obtain ⟨e0, e1, -, -, -, -⟩ := block_at7 i b
  unfold iblk7
  rw [View.read_apply]
  show (V c main_v6 : Spec.Mat 8192 4096) _ = _
  refine congrArg (V c main_v6 : Spec.Mat 8192 4096) ?_
  funext a
  apply Fin.ext
  match a with
  | ⟨0, _⟩ => show win7_0.index (pt7 i b) (0 : Fin 2) * 1024 + 1 * p.val = r.val; omega
  | ⟨1, _⟩ => show win7_0.index (pt7 i b) (1 : Fin 2) * 1024 + 1 * k.val = n.val; omega

theorem wblk7_apply (c : Dev nD) (i : Fin 8) (b : Fin 4) (k : Fin 1024) (q : Fin 1000) (n : Fin 4096)
    (hn : n.val = 1024 * b.val + k.val) :
    (iblk7 V c 1 (pt7 i b) : Spec.Mat 1024 1000) (ix2 k q) = (V c main_v3 : Spec.Mat 4096 1000) (ix2 n q) := by
  obtain ⟨-, -, e0, e1, -, -⟩ := block_at7 i b
  unfold iblk7
  rw [View.read_apply]
  show (V c main_v3 : Spec.Mat 4096 1000) _ = _
  refine congrArg (V c main_v3 : Spec.Mat 4096 1000) ?_
  funext a
  apply Fin.ext
  match a with
  | ⟨0, _⟩ => show win7_1.index (pt7 i b) (0 : Fin 2) * 1024 + 1 * k.val = n.val; omega
  | ⟨1, _⟩ => show win7_1.index (pt7 i b) (1 : Fin 2) * 1000 + 1 * q.val = q.val; omega

theorem acc7_last (c : Dev nD) (i : Fin 8) (p : Fin 1024) (q : Fin 1000) (r : Fin 8192) (hr : r.val = 1024 * i.val + p.val) :
    accAt7 V c (pt7 i 3).val (pt7 i 3).isLt (ix2 p q)
      = Spec.mm (V c main_v6 : Spec.Mat 8192 4096) (V c main_v3 : Spec.Mat 4096 1000) (ix2 r q) := by
  have hsteps := acc4_7 (fun b => iblk7 V c 0 (pt7 i b)) (fun b => iblk7 V c 1 (pt7 i b))
    (fun b => accAt7 V c (pt7 i b).val (pt7 i b).isLt)
    (accAt7_first V c (pt7 i 0) (pt7_mod i 0))
    (fun k => (accAt7_next V c (pt7 i k.succ) (by rw [pt7_mod, Fin.val_succ]; exact Nat.succ_ne_zero _)).trans
      (congrArg (k7_pay2 (F := Ideal) (iblk7 V c 0 (pt7 i k.succ)) (iblk7 V c 1 (pt7 i k.succ)))
        (accAt7_congr V c (by simp only [pt7_val, Fin.val_succ, Fin.coe_castSucc]; omega) _ _)))
    p q
  refine hsteps.trans ?_
  rw [Spec.mm_apply, ← Cert.BlockSum.sum_blocks (B := 4) (R := 1024) (N := 4096) rfl]
  refine Finset.sum_congr rfl fun b _ => Finset.sum_congr rfl fun k _ => ?_
  rw [zblk7_apply V c i b p k r (Cert.BlockSum.pos rfl b k) hr rfl, wblk7_apply V c i b k q (Cert.BlockSum.pos rfl b k) rfl]

theorem acc7_last_at (c : Dev nD) (i : Fin 8) (j : S1024x1000.Idx) (e : S8192x1000.Idx)
    (h0 : (e 0).val = 1024 * i.val + (j 0).val) (h1 : (e 1).val = (j 1).val) :
    accAt7 V c (pt7 i 3).val (pt7 i 3).isLt j
      = Spec.mm (V c main_v6 : Spec.Mat 8192 4096) (V c main_v3 : Spec.Mat 4096 1000) e := by
  obtain ⟨p, q, rfl⟩ : ∃ (p : Fin 1024) (q : Fin 1000), j = ix2 p q := ⟨j 0, j 1, eq_ix2 j⟩
  obtain ⟨r, q', rfl⟩ : ∃ (r : Fin 8192) (q' : Fin 1000), e = ix2 r q' := ⟨e 0, e 1, eq_ix2 e⟩
  obtain rfl : q' = q := Fin.ext h1
  exact acc7_last V c i p q' r h0

theorem flushed7_eq (c : Dev nD) (t : Fin cfg7.N) (hf : (cfg7.win 2).flush t = true) :
    (dat7 (F := Ideal) V c).flushed 2 t
      = ((cfg7.win 2).blk t).view.read (Elt Ideal)
          (Spec.mm (V c main_v6 : Spec.Mat 8192 4096) (V c main_v3 : Spec.Mat 4096 1000)) := by
  have h3 : t.val % 4 = 3 := (flush7_2 t).mp hf
  have hN : t.val < 32 := lt_of_lt_of_eq t.isLt (show cfg7.N = 32 from N_7)
  obtain ⟨i, rfl⟩ : ∃ i : Fin 8, t = pt7 i 3 :=
    ⟨⟨t.val / 4, by omega⟩, Fin.ext (by show t.val = 4 * (t.val / 4) + 3; omega)⟩
  obtain ⟨-, -, -, -, e0, e1⟩ := block_at7 i 3
  show (cfg7.win 2).cut (grid7.coords (pt7 i 3)) ((dat7 (F := Ideal) V c).after 2 (pt7 i 3)) = _
  rw [after7_2]
  funext j
  show accAt7 V c (pt7 i 3).val (pt7 i 3).isLt j
      = Spec.mm (V c main_v6 : Spec.Mat 8192 4096) (V c main_v3 : Spec.Mat 4096 1000) (((cfg7.win 2).blk (pt7 i 3)).view.emb j)
  refine acc7_last_at V c i j (((cfg7.win 2).blk (pt7 i 3)).view.emb j) ?_ ?_
  · show win7_2.index (pt7 i 3) (0 : Fin 2) * 1024 + 1 * (j 0).val = 1024 * i.val + (j 0).val
    omega
  · show win7_2.index (pt7 i 3) (1 : Fin 2) * 1000 + 1 * (j 1).val = (j 1).val
    omega

theorem mem_blk7 (t : Fin cfg7.N) (i : S8192x1000.Idx) :
    i ∈ ((cfg7.win 2).blk t).view.set
      ↔ ∀ a : Fin 2, win7_2.index t a * S1024x1000.size a ≤ (i a).val
          ∧ (i a).val < win7_2.index t a * S1024x1000.size a + S1024x1000.size a := by
  show i ∈ ((View.whole main_v7).slice (win7_2.rect t)).set ↔ _
  rw [View.set_slice_whole, Rect.mem_set_unit]
  exact Iff.rfl

theorem blocks_cover7 (i : S8192x1000.Idx) :
    ∃ t : Fin cfg7.N, (cfg7.win 2).flush t = true ∧ i ∈ ((cfg7.win 2).blk t).view.set := by
  have hi0 : (i 0).val < 8192 := (i 0).isLt
  have hi1 : (i 1).val < 1000 := (i 1).isLt
  obtain ⟨b, hb⟩ : ∃ b : Fin 8, b.val = (i 0).val / 1024 := ⟨⟨(i 0).val / 1024, by omega⟩, rfl⟩
  obtain ⟨-, -, -, -, e0, e1⟩ := block_at7 b 3
  refine ⟨pt7 b 3, (flush7_2 (pt7 b 3)).mpr (pt7_mod b 3), ?_⟩
  rw [mem_blk7]
  intro a
  match a with
  | ⟨0, _⟩ =>
    show win7_2.index (pt7 b 3) (0 : Fin 2) * 1024 ≤ (i 0).val ∧ (i 0).val < win7_2.index (pt7 b 3) (0 : Fin 2) * 1024 + 1024
    omega
  | ⟨1, _⟩ =>
    show win7_2.index (pt7 b 3) (1 : Fin 2) * 1000 ≤ (i 1).val ∧ (i 1).val < win7_2.index (pt7 b 3) (1 : Fin 2) * 1000 + 1000
    omega

theorem value7 (c : Dev nD) :
    ((dat7 (F := Ideal) V c).arrAt 2 cfg7.N : Spec.Mat 8192 1000) = Spec.mm (V c main_v6 : Spec.Mat 8192 4096) (V c main_v3 : Spec.Mat 4096 1000) :=
  (dat7 (F := Ideal) V c).arrAt_eq_of_cover 2 (Spec.mm (V c main_v6 : Spec.Mat 8192 4096) (V c main_v3 : Spec.Mat 4096 1000))
    (fun t hf => flushed7_eq V c t hf) blocks_cover7

end Cert.KernelIdeal.Hand

end
-- ==== Proof.LibKeepdims.lean ====
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KI.Val8.lean ====
import proofs.«134585_j83811991814293_1_alg».proof.Proof.KI.Reg8
import proofs.«134585_j83811991814293_1_alg».proof.Proof.Spec
import proofs.«134585_j83811991814293_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem spread_col_apply (m : FVec Ideal S1024 .f32) (p : Fin 1024) (k : Fin 1000) :
    broadcastTo S1024x1000 (shapeCast S1024x1 m shapeCasts_S1024_S1024x1) broadcasts_S1024x1_S1024x1000 (ix2 p k) = m (ix1 p) :=
  (Cert.Keepdims.broadcastTo_a1_ab_apply _ _ p k).trans (Cert.Keepdims.shapeCast_a_a1_apply m _ p 0)

theorem spread_log_col_apply (s : FVec Ideal S1024 .f32) (p : Fin 1024) (k : Fin 1000) :
    broadcastTo S1024x1000 (log (shapeCast S1024x1 s shapeCasts_S1024_S1024x1)) broadcasts_S1024x1_S1024x1000 (ix2 p k)
      = Ideal.log (s (ix1 p)) :=
  (Cert.Keepdims.broadcastTo_a1_ab_apply _ _ p k).trans (congrArg Ideal.log (Cert.Keepdims.shapeCast_a_a1_apply s _ p 0))

theorem pay8_apply (x : FVec Ideal S1024x1000 .f32) (p : Fin 1024) (q : Fin 1000) :
    k8_pay1 (F := Ideal) x (ix2 p q) = Spec.lsm (x : Spec.Mat 1024 1000) (ix2 p q) := by
  rw [Spec.lsm_apply]
  unfold k8_pay1
  rw [shapeCast_self x shapeCasts_S1024x1000_S1024x1000]
  have hmax : ∀ k : Fin 1000,
      broadcastTo S1024x1000
          (shapeCast S1024x1 (multiReduction (F := Ideal) .maximumf [1] S1024 x 0xFF800000#32 reduces_S1024x1000_S1024 (.inl rfl) rfl)
            shapeCasts_S1024_S1024x1)
          broadcasts_S1024x1_S1024x1000 (ix2 p k)
        = Spec.rowMax (x : Spec.Mat 1024 1000) p :=
    fun k => (spread_col_apply _ p k).trans (Cert.Keepdims.max_last2_apply x _ _ _ _ p)
  simp only [subf_apply]
  refine congrArg₂ (· - ·) (congrArg (x (ix2 p q) - ·) (hmax q)) ?_
  refine (spread_log_col_apply _ p q).trans (congrArg Ideal.log ?_)
  refine (Cert.Keepdims.sum_last2_apply _ _ _ _ _ p).trans (Finset.sum_congr rfl fun k _ => ?_)
  exact congrArg (fun m => Ideal.exp (x (ix2 p k) - m)) (hmax k)

theorem lsm_of_same_row (X : Spec.Mat 1024 1000) (Y : Spec.Mat 8192 1000) (p : Fin 1024) (r : Fin 8192)
    (h : ∀ k : Fin 1000, X (ix2 p k) = Y (ix2 r k)) (q : Fin 1000) : Spec.lsm X (ix2 p q) = Spec.lsm Y (ix2 r q) := by
  have hrow : (fun k : Fin 1000 => X (ix2 p k)) = fun k => Y (ix2 r k) := funext h
  have hm : Spec.rowMax X p = Spec.rowMax Y r :=
    congrArg (fun g => (Finset.univ : Finset (Fin 1000)).fold max Spec.ninf g) hrow
  have hs : Spec.rowSumExp X p = Spec.rowSumExp Y r := by
    unfold Spec.rowSumExp
    rw [hm]
    exact Finset.sum_congr rfl fun k _ => by rw [h k]
  rw [Spec.lsm_apply, Spec.lsm_apply, h q, hm, hs]

theorem pay8_eq_lsm_rows (Y : Spec.Mat 8192 1000) (n : ℕ) (x : FVec Ideal S1024x1000 .f32)
    (hx : ∀ (p : Fin 1024) (k : Fin 1000) (r : Fin 8192), r.val = 1024 * n + p.val → x (ix2 p k) = Y (ix2 r k))
    (j : S1024x1000.Idx) (i : S8192x1000.Idx) (h0 : (i 0).val = 1024 * n + (j 0).val) (h1 : (i 1).val = (j 1).val) :
    k8_pay1 (F := Ideal) x j = Spec.lsm Y i := by
  obtain ⟨p, q, rfl⟩ : ∃ (p : Fin 1024) (q : Fin 1000), j = ix2 p q := ⟨j 0, j 1, eq_ix2 j⟩
  obtain ⟨r, q', rfl⟩ : ∃ (r : Fin 8192) (q' : Fin 1000), i = ix2 r q' := ⟨i 0, i 1, eq_ix2 i⟩
  obtain rfl : q' = q := Fin.ext h1
  rw [pay8_apply]
  exact lsm_of_same_row x Y p r (fun k => hx p k r h0) q'

variable (V : (c : Dev nD) → (b : Ref sig .tc) → Buf (Elt Ideal) ((c : Thread nD τ).loc b))

theorem zero_offsets8 : (![0, 0] : Fin 2 → Nat) = fun _ => 0 := funext fun a => by fin_cases a <;> rfl

theorem block_at8 : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

theorem iblk8_row (c : Dev nD) (t : Fin cfg8.N) (p : Fin 1024) (k : Fin 1000) (r : Fin 8192) (hr : r.val = 1024 * t.val + p.val) :
    (iblk8 V c 0 t : Spec.Mat 1024 1000) (ix2 p k) = (V c main_v7 : Spec.Mat 8192 1000) (ix2 r k) := by
  obtain ⟨e0, e1, -, -⟩ := block_at8 t
  unfold iblk8
  rw [View.read_apply]
  show (V c main_v7 : Spec.Mat 8192 1000) _ = _
  refine congrArg (V c main_v7 : Spec.Mat 8192 1000) ?_
  funext a
  apply Fin.ext
  match a with
  | ⟨0, _⟩ => show win8_0.index t (0 : Fin 2) * 1024 + 1 * p.val = r.val; omega
  | ⟨1, _⟩ => show win8_0.index t (1 : Fin 2) * 1000 + 1 * k.val = k.val; omega

theorem flushed8_eq (c : Dev nD) (t : Fin cfg8.N) :
    (dat8 (F := Ideal) V c).flushed 1 t
      = ((cfg8.win 1).blk t).view.read (Elt Ideal) (Spec.lsm (V c main_v7 : Spec.Mat 8192 1000)) := by
  show (cfg8.win 1).cut (grid8.coords t) ((dat8 (F := Ideal) V c).after 1 t) = _
  rw [after8_1]
  unfold lsmBlock8
  rw [View.canon_unit_zero zero_offsets8]
  simp only [View.ld_unit_zero (S := S1024x1000) zero_offsets8]
  obtain ⟨-, -, e0, e1⟩ := block_at8 t
  funext j
  show k8_pay1 (F := Ideal) (iblk8 V c 0 t) j
      = Spec.lsm (V c main_v7 : Spec.Mat 8192 1000) (((cfg8.win 1).blk t).view.emb j)
  refine pay8_eq_lsm_rows (V c main_v7 : Spec.Mat 8192 1000) t.val (iblk8 V c 0 t)
    (fun p k r hr => iblk8_row V c t p k r hr) j (((cfg8.win 1).blk t).view.emb j) ?_ ?_
  · show win8_1.index t (0 : Fin 2) * 1024 + 1 * (j 0).val = 1024 * t.val + (j 0).val
    omega
  · show win8_1.index t (1 : Fin 2) * 1000 + 1 * (j 1).val = (j 1).val
    omega

theorem mem_blk8 (t : Fin cfg8.N) (i : S8192x1000.Idx) :
    i ∈ ((cfg8.win 1).blk t).view.set
      ↔ ∀ a : Fin 2, win8_1.index t a * S1024x1000.size a ≤ (i a).val
          ∧ (i a).val < win8_1.index t a * S1024x1000.size a + S1024x1000.size a := by
  show i ∈ ((View.whole main_v8).slice (win8_1.rect t)).set ↔ _
  rw [View.set_slice_whole, Rect.mem_set_unit]
  exact Iff.rfl

theorem blocks_cover8 (i : S8192x1000.Idx) :
    ∃ t : Fin cfg8.N, (cfg8.win 1).flush t = true ∧ i ∈ ((cfg8.win 1).blk t).view.set := by
  have hi0 : (i 0).val < 8192 := (i 0).isLt
  have hi1 : (i 1).val < 1000 := (i 1).isLt
  have hN : cfg8.N = 8 := N_8
  obtain ⟨t, ht⟩ : ∃ t : Fin cfg8.N, t.val = (i 0).val / 1024 := ⟨⟨(i 0).val / 1024, by rw [hN]; omega⟩, rfl⟩
  obtain ⟨-, -, e0, e1⟩ := block_at8 t
  refine ⟨t, flush8_1 t, ?_⟩
  rw [mem_blk8]
  intro a
  match a with
  | ⟨0, _⟩ =>
    show win8_1.index t (0 : Fin 2) * 1024 ≤ (i 0).val ∧ (i 0).val < win8_1.index t (0 : Fin 2) * 1024 + 1024
    omega
  | ⟨1, _⟩ =>
    show win8_1.index t (1 : Fin 2) * 1000 ≤ (i 1).val ∧ (i 1).val < win8_1.index t (1 : Fin 2) * 1000 + 1000
    omega

theorem value8 (c : Dev nD) :
    ((dat8 (F := Ideal) V c).arrAt 1 cfg8.N : Spec.Mat 8192 1000) = Spec.lsm (V c main_v7 : Spec.Mat 8192 1000) :=
  (dat8 (F := Ideal) V c).arrAt_eq_of_cover 1 (Spec.lsm (V c main_v7 : Spec.Mat 8192 1000))
    (fun t _ => flushed8_eq V c t) blocks_cover8

end Cert.KernelIdeal.Hand

end
-- ==== Proof.KI.Values.lean ====
import proofs.«134585_j83811991814293_1_alg».proof.Proof.KI.Run
import proofs.«134585_j83811991814293_1_alg».proof.Proof.KI.Val0
import proofs.«134585_j83811991814293_1_alg».proof.Proof.KI.Val1
import proofs.«134585_j83811991814293_1_alg».proof.Proof.KI.Val2
import proofs.«134585_j83811991814293_1_alg».proof.Proof.KI.Val3
import proofs.«134585_j83811991814293_1_alg».proof.Proof.KI.Val4
import proofs.«134585_j83811991814293_1_alg».proof.Proof.KI.Val5
import proofs.«134585_j83811991814293_1_alg».proof.Proof.KI.Val6
import proofs.«134585_j83811991814293_1_alg».proof.Proof.KI.Val7
import proofs.«134585_j83811991814293_1_alg».proof.Proof.KI.Val8
import proofs.«134585_j83811991814293_1_alg».proof.Proof.Spec

set_option maxRecDepth 16384
set_option maxHeartbeats 4000000

noncomputable section

namespace Cert.KernelIdeal.Hand

open Cert.KernelIdeal Cert.KernelIdeal.Gen
open Idealize.ShloMosaic Idealize.ShloMosaic.TcCoe
open Cert.Spec (Mat mm relu lsm net)

variable (m : (ℓ : Loc nD τ sig) → Buf (Elt Ideal) ℓ)

theorem W1_arg3 (c : Dev nD) : W1 m c (Proc.devRef .tc main_arg3) = m ((c : Thread nD τ).loc main_arg3) := (W1_of_ne m c main_arg3 (by decide))
theorem W1_arg4 (c : Dev nD) : W1 m c (Proc.devRef .tc main_arg4) = m ((c : Thread nD τ).loc main_arg4) := (W1_of_ne m c main_arg4 (by decide))
theorem W2_arg5 (c : Dev nD) : W2 m c (Proc.devRef .tc main_arg5) = m ((c : Thread nD τ).loc main_arg5) := ((W2_of_ne m c main_arg5 (by decide))).trans (W1_of_ne m c main_arg5 (by decide))
theorem W2_arg6 (c : Dev nD) : W2 m c (Proc.devRef .tc main_arg6) = m ((c : Thread nD τ).loc main_arg6) := ((W2_of_ne m c main_arg6 (by decide))).trans (W1_of_ne m c main_arg6 (by decide))
theorem W3_arg7 (c : Dev nD) : W3 m c (Proc.devRef .tc main_arg7) = m ((c : Thread nD τ).loc main_arg7) := (((W3_of_ne m c main_arg7 (by decide))).trans (W2_of_ne m c main_arg7 (by decide))).trans (W1_of_ne m c main_arg7 (by decide))
theorem W3_arg8 (c : Dev nD) : W3 m c (Proc.devRef .tc main_arg8) = m ((c : Thread nD τ).loc main_arg8) := (((W3_of_ne m c main_arg8 (by decide))).trans (W2_of_ne m c main_arg8 (by decide))).trans (W1_of_ne m c main_arg8 (by decide))
theorem W4_arg0 (c : Dev nD) : W4 m c (Proc.devRef .tc main_arg0) = m ((c : Thread nD τ).loc main_arg0) := ((((W4_of_ne m c main_arg0 (by decide))).trans (W3_of_ne m c main_arg0 (by decide))).trans (W2_of_ne m c main_arg0 (by decide))).trans (W1_of_ne m c main_arg0 (by decide))
theorem W4_v0 (c : Dev nD) : W4 m c (Proc.devRef .tc main_v0) = W1 m c (Proc.devRef .tc main_v0) := (((W4_of_ne m c main_v0 (by decide))).trans (W3_of_ne m c main_v0 (by decide))).trans (W2_of_ne m c main_v0 (by decide))
theorem W5_v1 (c : Dev nD) : W5 m c (Proc.devRef .tc main_v1) = W2 m c (Proc.devRef .tc main_v1) := (((W5_of_ne m c main_v1 (by decide))).trans (W4_of_ne m c main_v1 (by decide))).trans (W3_of_ne m c main_v1 (by decide))
theorem W6_v2 (c : Dev nD) : W6 m c (Proc.devRef .tc main_v2) = W3 m c (Proc.devRef .tc main_v2) := (((W6_of_ne m c main_v2 (by decide))).trans (W5_of_ne m c main_v2 (by decide))).trans (W4_of_ne m c main_v2 (by decide))
theorem W7_v3 (c : Dev nD) : W7 m c (Proc.devRef .tc main_v3) = W4 m c (Proc.devRef .tc main_v3) := (((W7_of_ne m c main_v3 (by decide))).trans (W6_of_ne m c main_v3 (by decide))).trans (W5_of_ne m c main_v3 (by decide))

theorem weight0 (c : Dev nD) : (W1 m c (Proc.devRef .tc main_v0) : Mat 1024 4096) = mm (m ((c : Thread nD τ).loc main_arg1)) (m ((c : Thread nD τ).loc main_arg2)) :=
  (W1_arr m c 2).trans (value0 (V0 m) c)
theorem weight1 (c : Dev nD) : (W2 m c (Proc.devRef .tc main_v1) : Mat 4096 4096) = mm (m ((c : Thread nD τ).loc main_arg3)) (m ((c : Thread nD τ).loc main_arg4)) :=
  ((W2_arr m c 2).trans (value1 (V1 m) c)).trans (congrArg₂ (mm (M := 4096) (K := 128) (N := 4096)) (W1_arg3 m c) (W1_arg4 m c))
theorem weight2 (c : Dev nD) : (W3 m c (Proc.devRef .tc main_v2) : Mat 4096 4096) = mm (m ((c : Thread nD τ).loc main_arg5)) (m ((c : Thread nD τ).loc main_arg6)) :=
  ((W3_arr m c 2).trans (value2 (V2 m) c)).trans (congrArg₂ (mm (M := 4096) (K := 128) (N := 4096)) (W2_arg5 m c) (W2_arg6 m c))
theorem weight3 (c : Dev nD) : (W4 m c (Proc.devRef .tc main_v3) : Mat 4096 1000) = mm (m ((c : Thread nD τ).loc main_arg7)) (m ((c : Thread nD τ).loc main_arg8)) :=
  ((W4_arr m c 2).trans (value3 (V3 m) c)).trans (congrArg₂ (mm (M := 4096) (K := 128) (N := 1000)) (W3_arg7 m c) (W3_arg8 m c))

theorem layer0 (c : Dev nD) : (W5 m c (Proc.devRef .tc main_v4) : Mat 8192 4096)
    = relu (mm (m ((c : Thread nD τ).loc main_arg0)) (mm (m ((c : Thread nD τ).loc main_arg1)) (m ((c : Thread nD τ).loc main_arg2)))) :=
  ((W5_arr m c 2).trans (value4 (V4 m) c)).trans
    (congrArg relu (congrArg₂ (mm (M := 8192) (K := 1024) (N := 4096)) (W4_arg0 m c) ((W4_v0 m c).trans (weight0 m c))))
theorem layer1 (c : Dev nD) : (W6 m c (Proc.devRef .tc main_v5) : Mat 8192 4096)
    = relu (mm (relu (mm (m ((c : Thread nD τ).loc main_arg0)) (mm (m ((c : Thread nD τ).loc main_arg1)) (m ((c : Thread nD τ).loc main_arg2))))) (mm (m ((c : Thread nD τ).loc main_arg3)) (m ((c : Thread nD τ).loc main_arg4)))) :=
  ((W6_arr m c 2).trans (value5 (V5 m) c)).trans
    (congrArg relu (congrArg₂ (mm (M := 8192) (K := 4096) (N := 4096)) (layer0 m c) ((W5_v1 m c).trans (weight1 m c))))
theorem layer2 (c : Dev nD) : (W7 m c (Proc.devRef .tc main_v6) : Mat 8192 4096)
    = relu (mm (relu (mm (relu (mm (m ((c : Thread nD τ).loc main_arg0)) (mm (m ((c : Thread nD τ).loc main_arg1)) (m ((c : Thread nD τ).loc main_arg2))))) (mm (m ((c : Thread nD τ).loc main_arg3)) (m ((c : Thread nD τ).loc main_arg4))))) (mm (m ((c : Thread nD τ).loc main_arg5)) (m ((c : Thread nD τ).loc main_arg6)))) :=
  ((W7_arr m c 2).trans (value6 (V6 m) c)).trans
    (congrArg relu (congrArg₂ (mm (M := 8192) (K := 4096) (N := 4096)) (layer1 m c) ((W6_v2 m c).trans (weight2 m c))))
theorem logits (c : Dev nD) : (W8 m c (Proc.devRef .tc main_v7) : Mat 8192 1000)
    = mm (relu (mm (relu (mm (relu (mm (m ((c : Thread nD τ).loc main_arg0)) (mm (m ((c : Thread nD τ).loc main_arg1)) (m ((c : Thread nD τ).loc main_arg2))))) (mm (m ((c : Thread nD τ).loc main_arg3)) (m ((c : Thread nD τ).loc main_arg4))))) (mm (m ((c : Thread nD τ).loc main_arg5)) (m ((c : Thread nD τ).loc main_arg6))))) (mm (m ((c : Thread nD τ).loc main_arg7)) (m ((c : Thread nD τ).loc main_arg8))) :=
  ((W8_arr m c 2).trans (value7 (V7 m) c)).trans
    (congrArg₂ (mm (M := 8192) (K := 4096) (N := 1000)) (layer2 m c) ((W7_v3 m c).trans (weight3 m c)))

theorem result_eq (c : Dev nD) : (W9 m c (Proc.devRef .tc main_v8) : Mat 8192 1000)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W9_arr m c 1).trans (value8 (V8 m) c)).trans (congrArg lsm (logits m c))

end Cert.KernelIdeal.Hand

end
-- ==== Proof.RefOpsPlain.lean ====
import proofs.«134585_j83811991814293_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev opsPlain : List (HloOp τ sig (Elt F)) :=
  [ binary main_arg1 main_arg2 main_v0 ((fun l r => Host.dotGeneral dot_S1024x128_S128x4096_S1024x4096_1_0_0_1_n_n none l r) : (⟨S1024x128, .f32⟩ : BufTy).Contents (Elt F) → (⟨S128x4096, .f32⟩ : BufTy).Contents (Elt F) → (⟨S1024x4096, .f32⟩ : BufTy).Contents (Elt F)),
    binary main_arg0 main_v0 main_v1 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    nullary main_call0_cst ((constant S_ .f32 0x00000000#32) : (⟨S_, .f32⟩ : BufTy).Contents (Elt F)),
    unary main_call0_cst main_call0_v0 ((broadcastInDim S8192x4096 ![] bcast_S_S8192x4096) : (⟨S_, .f32⟩ : BufTy).Contents (Elt F) → (⟨S8192x4096, .f32⟩ : BufTy).Contents (Elt F)),
    binary main_v1 main_call0_v0 main_v2 (maximumf : (⟨S8192x4096, .f32⟩ : BufTy).Contents (Elt F) → (⟨S8192x4096, .f32⟩ : BufTy).Contents (Elt F) → (⟨S8192x4096, .f32⟩ : BufTy).Contents (Elt F)),
    binary main_arg3 main_arg4 main_v3 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    binary main_v2 main_v3 main_v4 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_call1_cst ((constant S_ .f32 0x00000000#32) : (⟨S_, .f32⟩ : BufTy).Contents (Elt F)),
    unary main_call1_cst main_call1_v0 ((broadcastInDim S8192x4096 ![] bcast_S_S8192x4096) : (⟨S_, .f32⟩ : BufTy).Contents (Elt F) → (⟨S8192x4096, .f32⟩ : BufTy).Contents (Elt F)),
    binary main_v4 main_call1_v0 main_v5 (maximumf : (⟨S8192x4096, .f32⟩ : BufTy).Contents (Elt F) → (⟨S8192x4096, .f32⟩ : BufTy).Contents (Elt F) → (⟨S8192x4096, .f32⟩ : BufTy).Contents (Elt F)),
    binary main_arg5 main_arg6 main_v6 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    binary main_v5 main_v6 main_v7 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    nullary main_call2_cst ((constant S_ .f32 0x00000000#32) : (⟨S_, .f32⟩ : BufTy).Contents (Elt F)),
    unary main_call2_cst main_call2_v0 ((broadcastInDim S8192x4096 ![] bcast_S_S8192x4096) : (⟨S_, .f32⟩ : BufTy).Contents (Elt F) → (⟨S8192x4096, .f32⟩ : BufTy).Contents (Elt F)),
    binary main_v7 main_call2_v0 main_v8 (maximumf : (⟨S8192x4096, .f32⟩ : BufTy).Contents (Elt F) → (⟨S8192x4096, .f32⟩ : BufTy).Contents (Elt F) → (⟨S8192x4096, .f32⟩ : BufTy).Contents (Elt F)),
    binary main_arg7 main_arg8 main_v9 ((fun l r => Host.dotGeneral dot_S4096x128_S128x1000_S4096x1000_1_0_0_1_n_n none l r) : (⟨S4096x128, .f32⟩ : BufTy).Contents (Elt F) → (⟨S128x1000, .f32⟩ : BufTy).Contents (Elt F) → (⟨S4096x1000, .f32⟩ : BufTy).Contents (Elt F)),
    binary main_v8 main_v9 main_v10 ((fun l r => Host.dotGeneral dot_S8192x4096_S4096x1000_S8192x1000_1_0_0_1_n_n none l r) : (⟨S8192x4096, .f32⟩ : BufTy).Contents (Elt F) → (⟨S4096x1000, .f32⟩ : BufTy).Contents (Elt F) → (⟨S8192x1000, .f32⟩ : BufTy).Contents (Elt F)),
    nullary main_call3_cst ((constant S_ .f32 0xFF800000#32) : (⟨S_, .f32⟩ : BufTy).Contents (Elt F)),
    binary main_v10 main_call3_cst main_call3_v0 ((fun x v => Host.reduce FloatOps.maximumf x v reducesTo_S8192x1000_S8192_d1 h_S_) : (⟨S8192x1000, .f32⟩ : BufTy).Contents (Elt F) → (⟨S_, .f32⟩ : BufTy).Contents (Elt F) → (⟨S8192, .f32⟩ : BufTy).Contents (Elt F)),
    nullary main_call3_cst_0 ((constant S_ .f32 0xFF800000#32) : (⟨S_, .f32⟩ : BufTy).Contents (Elt F)),
    unary main_call3_cst_0 main_call3_v1 ((broadcastInDim S8192 ![] bcast_S_S8192) : (⟨S_, .f32⟩ : BufTy).Contents (Elt F) → (⟨S8192, .f32⟩ : BufTy).Contents (Elt F)),
    binary main_call3_v1 main_call3_v0 main_call3_v2 (maximumf : (⟨S8192, .f32⟩ : BufTy).Contents (Elt F) → (⟨S8192, .f32⟩ : BufTy).Contents (Elt F) → (⟨S8192, .f32⟩ : BufTy).Contents (Elt F)),
    unary main_call3_v2 main_call3_v3 ((broadcastInDim S8192x1 ![0] bcast_S8192_S8192x1_0) : (⟨S8192, .f32⟩ : BufTy).Contents (Elt F) → (⟨S8192x1, .f32⟩ : BufTy).Contents (Elt F)),
    unary main_call3_v3 main_call3_v4 ((broadcastInDim S8192x1000 ![0, 1] bcast_S8192x1_S8192x1000_0_1) : (⟨S8192x1, .f32⟩ : BufTy).Contents (Elt F) → (⟨S8192x1000, .f32⟩ : BufTy).Contents (Elt F)),
    binary main_v10 main_call3_v4 main_call3_v5 (subf : (⟨S8192x1000, .f32⟩ : BufTy).Contents (Elt F) → (⟨S8192x1000, .f32⟩ : BufTy).Contents (Elt F) → (⟨S8192x1000, .f32⟩ : BufTy).Contents (Elt F)),
    unary main_call3_v5 main_call3_v6 (Host.exp : (⟨S8192x1000, .f32⟩ : BufTy).Contents (Elt F) → (⟨S8192x1000, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S8192x1000_S8192_d1 h_S_) : (⟨S8192x1000, .f32⟩ : BufTy).Contents (Elt F) → (⟨S_, .f32⟩ : BufTy).Contents (Elt F) → (⟨S8192, .f32⟩ : BufTy).Contents (Elt F)),
    unary main_call3_v7 main_call3_v8 ((broadcastInDim S8192x1 ![0] bcast_S8192_S8192x1_0) : (⟨S8192, .f32⟩ : BufTy).Contents (Elt F) → (⟨S8192x1, .f32⟩ : BufTy).Contents (Elt F)),
    unary main_call3_v8 main_call3_v9 (Host.log : (⟨S8192x1, .f32⟩ : BufTy).Contents (Elt F) → (⟨S8192x1, .f32⟩ : BufTy).Contents (Elt F)),
    unary main_call3_v9 main_call3_v10 ((broadcastInDim S8192x1000 ![0, 1] bcast_S8192x1_S8192x1000_0_1) : (⟨S8192x1, .f32⟩ : BufTy).Contents (Elt F) → (⟨S8192x1000, .f32⟩ : BufTy).Contents (Elt F)),
    binary main_call3_v5 main_call3_v10 main_v11 (subf : (⟨S8192x1000, .f32⟩ : BufTy).Contents (Elt F) → (⟨S8192x1000, .f32⟩ : BufTy).Contents (Elt F) → (⟨S8192x1000, .f32⟩ : BufTy).Contents (Elt F)) ]

end Cert.ReferenceIdeal.RefValue

end
-- ==== Proof.RefValue.lean ====
import proofs.«134585_j83811991814293_1_alg».proof.Proof.RefRunP
import proofs.«134585_j83811991814293_1_alg».proof.Proof.Spec
import proofs.«134585_j83811991814293_1_alg».proof.Proof.LibDotPlain
import proofs.«134585_j83811991814293_1_alg».proof.Proof.LibKeepdims
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.TcCoe Idealize.SL.Sem
open scoped BigOperators

section Stages

variable {F : FTy → Type} [FloatOps F]

def rectified (z : (⟨S8192x4096, .f32⟩ : BufTy).Contents (Elt F)) : (⟨S8192x4096, .f32⟩ : BufTy).Contents (Elt F) :=
  maximumf z (broadcastInDim S8192x4096 ![] bcast_S_S8192x4096 (constant S_ .f32 0x00000000#32))

def rowTop (y : (⟨S8192x1000, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf y (constant S_ .f32 0xFF800000#32) reducesTo_S8192x1000_S8192_d1 h_S_)

def shifted (y : (⟨S8192x1000, .f32⟩ : BufTy).Contents (Elt F)) : (⟨S8192x1000, .f32⟩ : BufTy).Contents (Elt F) :=
  subf y (broadcastInDim S8192x1000 ![0, 1] bcast_S8192x1_S8192x1000_0_1 (broadcastInDim S8192x1 ![0] bcast_S8192_S8192x1_0 (rowTop y)))

def logSoftmaxed (y : (⟨S8192x1000, .f32⟩ : BufTy).Contents (Elt F)) : (⟨S8192x1000, .f32⟩ : BufTy).Contents (Elt F) :=
  subf (shifted y)
    (broadcastInDim S8192x1000 ![0, 1] bcast_S8192x1_S8192x1000_0_1
      (Host.log (broadcastInDim S8192x1 ![0] bcast_S8192_S8192x1_0
        (Host.reduceAdd (Host.exp (shifted y)) (constant S_ .f32 0x00000000#32) reducesTo_S8192x1000_S8192_d1 h_S_))))

def staged (x : (⟨S8192x1024, .f32⟩ : BufTy).Contents (Elt F))
    (k0 : (⟨S1024x128, .f32⟩ : BufTy).Contents (Elt F)) (vt0 : (⟨S128x4096, .f32⟩ : BufTy).Contents (Elt F))
    (k1 : (⟨S4096x128, .f32⟩ : BufTy).Contents (Elt F)) (vt1 : (⟨S128x4096, .f32⟩ : BufTy).Contents (Elt F))
    (k2 : (⟨S4096x128, .f32⟩ : BufTy).Contents (Elt F)) (vt2 : (⟨S128x4096, .f32⟩ : BufTy).Contents (Elt F))
    (k3 : (⟨S4096x128, .f32⟩ : BufTy).Contents (Elt F)) (vt3 : (⟨S128x1000, .f32⟩ : BufTy).Contents (Elt F)) :
    (⟨S8192x1000, .f32⟩ : BufTy).Contents (Elt F) :=
  logSoftmaxed
    (Host.dotGeneral dot_S8192x4096_S4096x1000_S8192x1000_1_0_0_1_n_n none
      (rectified (Host.dotGeneral dot_S8192x4096_S4096x4096_S8192x4096_1_0_0_1_n_n none
        (rectified (Host.dotGeneral dot_S8192x4096_S4096x4096_S8192x4096_1_0_0_1_n_n none
          (rectified (Host.dotGeneral dot_S8192x1024_S1024x4096_S8192x4096_1_0_0_1_n_n none x
            (Host.dotGeneral dot_S1024x128_S128x4096_S1024x4096_1_0_0_1_n_n none k0 vt0)))
          (Host.dotGeneral dot_S4096x128_S128x4096_S4096x4096_1_0_0_1_n_n none k1 vt1)))
        (Host.dotGeneral dot_S4096x128_S128x4096_S4096x4096_1_0_0_1_n_n none k2 vt2)))
      (Host.dotGeneral dot_S4096x128_S128x1000_S4096x1000_1_0_0_1_n_n none k3 vt3))

theorem res_eq_staged (m : (ℓ : Loc nD τ sig) → Buf (Elt F) ℓ) (c : Dev nD) :
    Cert.ReferenceIdeal.ValueP.res_main_v11 m c
      = staged (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v11; rfl

end Stages

theorem host_product {M K N : ℕ} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨⟨2, ![M, K]⟩, .f32⟩ : BufTy).Contents (Elt Ideal)) (r : (⟨⟨2, ![K, N]⟩, .f32⟩ : BufTy).Contents (Elt Ideal)) :
    Host.dotGeneral (F := Ideal) (φ₁ := .f32) (φ₂ := .f32) d none l r = Cert.Spec.mm (M := M) (K := K) (N := N) l r := by
  funext i
  obtain ⟨p, q, rfl⟩ : ∃ (p : Fin M) (q : Fin N), i = ix2 p q := ⟨i 0, i 1, eq_ix2 i⟩
  exact (Cert.DotPlain.dotGeneral_rows_cols d hlb hrb hlc hrc hln hrn none .single l r p q).trans
    (Cert.Spec.mm_apply (M := M) (K := K) (N := N) l r p q).symm

theorem splat_apply {α : Type} {t : Shape} (hb : S_.BroadcastsInDim t (![] : Fin 0 → Fin t.rank)) (x : S_.Idx → α) (j : t.Idx) :
    broadcastInDim t ![] hb x j = x ix0 :=
  broadcastInDim_apply _ hb x j ix0 (fun a => a.elim0)

theorem rectified_eq (z : (⟨S8192x4096, .f32⟩ : BufTy).Contents (Elt Ideal)) :
    rectified (F := Ideal) z = Cert.Spec.relu (M := 8192) (N := 4096) z := by
  funext i
  unfold rectified
  rw [maximumf_apply, splat_apply, constant_apply, Ideal.ofBits_zero_f32]
  rfl

theorem column_apply {α : Type} (hb : S8192.BroadcastsInDim S8192x1 (![0] : Fin 1 → Fin S8192x1.rank)) (v : S8192.Idx → α)
    (p : Fin 8192) (u : Fin 1) :
    broadcastInDim S8192x1 ![0] hb v (ix2 p u) = v (ix1 p) :=
  broadcastInDim_apply _ hb v (ix2 p u) (ix1 p) (fun a => match a with
    | ⟨0, _⟩ => by show p.val = if (8192 : ℕ) = 1 then 0 else p.val; rw [if_neg (by decide)])

theorem spread_apply {α : Type} (hb : S8192x1.BroadcastsInDim S8192x1000 (![0, 1] : Fin 2 → Fin S8192x1000.rank))
    (w : S8192x1.Idx → α) (p : Fin 8192) (q : Fin 1000) :
    broadcastInDim S8192x1000 ![0, 1] hb w (ix2 p q) = w (ix2 p (0 : Fin 1)) :=
  broadcastInDim_apply _ hb w (ix2 p q) (ix2 p (0 : Fin 1)) (fun a => match a with
    | ⟨0, _⟩ => by show p.val = if (8192 : ℕ) = 1 then 0 else p.val; rw [if_neg (by decide)]
    | ⟨1, _⟩ => by show 0 = if (1 : ℕ) = 1 then 0 else q.val; rw [if_pos rfl])

theorem rowTop_apply (y : (⟨S8192x1000, .f32⟩ : BufTy).Contents (Elt Ideal)) (p : Fin 8192) :
    rowTop (F := Ideal) y (ix1 p) = Cert.Spec.rowMax (M := 8192) (N := 1000) y p := by
  unfold rowTop
  rw [maximumf_apply, splat_apply, constant_apply,
    Cert.Keepdims.host_max_last2_apply (φ := .f32) (a := 8192) (b := 1000) y (constant (F := Ideal) S_ .f32 0xFF800000#32)
      reducesTo_S8192x1000_S8192_d1 (by decide) h_S_ p,
    constant_apply]
  exact max_eq_right ((Finset.le_fold_max _).mpr (Or.inl le_rfl))

theorem shifted_apply (y : (⟨S8192x1000, .f32⟩ : BufTy).Contents (Elt Ideal)) (p : Fin 8192) (q : Fin 1000) :
    shifted (F := Ideal) y (ix2 p q) = y (ix2 p q) - Cert.Spec.rowMax (M := 8192) (N := 1000) y p := by
  unfold shifted
  rw [subf_apply, spread_apply, column_apply, rowTop_apply]

theorem host_sum_row (x : (⟨S8192x1000, .f32⟩ : BufTy).Contents (Elt Ideal)) (init : (⟨S_, .f32⟩ : BufTy).Contents (Elt Ideal))
    (p : Fin 8192) :
    Host.reduceAdd (F := Ideal) (φ := .f32) x init reducesTo_S8192x1000_S8192_d1 h_S_ (ix1 p)
      = init (Shape.Idx.first h_S_) + ∑ k : Fin 1000, x (ix2 p k) := by
  simp only [Host.reduceAdd, Ideal.hostReduceAdd_def]
  rw [Ideal.hostReduceAdd_single reducesTo_S8192x1000_S8192_d1 (by decide)]
  refine congrArg (_ + ·) (Finset.sum_congr rfl fun k _ => ?_)
  exact congrArg x (funext fun a => Fin.ext (by match a with | ⟨0, _⟩ => rfl | ⟨1, _⟩ => rfl))

theorem logSoftmaxed_eq (y : (⟨S8192x1000, .f32⟩ : BufTy).Contents (Elt Ideal)) :
    logSoftmaxed (F := Ideal) y = Cert.Spec.lsm (M := 8192) (N := 1000) y := by
  funext i
  obtain ⟨p, q, rfl⟩ : ∃ (p : Fin 8192) (q : Fin 1000), i = ix2 p q := ⟨i 0, i 1, eq_ix2 i⟩
  rw [Cert.Spec.lsm_apply]
  unfold logSoftmaxed
  rw [subf_apply, shifted_apply, spread_apply]
  show _ - FloatOps.hostUnary (F := Ideal) .log _ = _
  rw [Ideal.hostUnary_log_def, column_apply, host_sum_row, constant_apply, Ideal.ofBits_zero_f32, zero_add]
  refine congrArg (fun s => _ - Ideal.log s) (Finset.sum_congr rfl fun k _ => ?_)
  show FloatOps.hostUnary (F := Ideal) .exp _ = _
  rw [Ideal.hostUnary_exp_def, shifted_apply]

theorem staged_eq (x : (⟨S8192x1024, .f32⟩ : BufTy).Contents (Elt Ideal))
    (k0 : (⟨S1024x128, .f32⟩ : BufTy).Contents (Elt Ideal)) (vt0 : (⟨S128x4096, .f32⟩ : BufTy).Contents (Elt Ideal))
    (k1 : (⟨S4096x128, .f32⟩ : BufTy).Contents (Elt Ideal)) (vt1 : (⟨S128x4096, .f32⟩ : BufTy).Contents (Elt Ideal))
    (k2 : (⟨S4096x128, .f32⟩ : BufTy).Contents (Elt Ideal)) (vt2 : (⟨S128x4096, .f32⟩ : BufTy).Contents (Elt Ideal))
    (k3 : (⟨S4096x128, .f32⟩ : BufTy).Contents (Elt Ideal)) (vt3 : (⟨S128x1000, .f32⟩ : BufTy).Contents (Elt Ideal)) :
    staged (F := Ideal) x k0 vt0 k1 vt1 k2 vt2 k3 vt3 = Cert.Spec.net x k0 vt0 k1 vt1 k2 vt2 k3 vt3 := by
  unfold staged Cert.Spec.net
  rw [logSoftmaxed_eq,
    host_product dot_S1024x128_S128x4096_S1024x4096_1_0_0_1_n_n rfl rfl rfl rfl rfl rfl,
    host_product dot_S8192x1024_S1024x4096_S8192x4096_1_0_0_1_n_n rfl rfl rfl rfl rfl rfl,
    rectified_eq,
    host_product dot_S4096x128_S128x4096_S4096x4096_1_0_0_1_n_n rfl rfl rfl rfl rfl rfl,
    host_product dot_S8192x4096_S4096x4096_S8192x4096_1_0_0_1_n_n rfl rfl rfl rfl rfl rfl,
    rectified_eq,
    host_product dot_S4096x128_S128x4096_S4096x4096_1_0_0_1_n_n rfl rfl rfl rfl rfl rfl,
    host_product dot_S8192x4096_S4096x4096_S8192x4096_1_0_0_1_n_n rfl rfl rfl rfl rfl rfl,
    rectified_eq,
    host_product dot_S4096x128_S128x1000_S4096x1000_1_0_0_1_n_n rfl rfl rfl rfl rfl rfl,
    host_product dot_S8192x4096_S4096x1000_S8192x1000_1_0_0_1_n_n rfl rfl rfl rfl rfl rfl]

theorem ref_eq (m : (ℓ : Loc nD τ sig) → Buf (Elt Ideal) ℓ) (c : Dev nD) :
    (Cert.ReferenceIdeal.ValueP.res_main_v11 (F := Ideal) m c : Cert.Spec.Mat 8192 1000)
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (res_eq_staged (F := Ideal) m c).trans (staged_eq _ _ _ _ _ _ _ _ _)

end Cert.ReferenceIdeal.RefValue

end
-- ==== Proof.lean ====
import proofs.«134585_j83811991814293_1_alg».proof.Defs
import proofs.«134585_j83811991814293_1_alg».proof.Proof.Gen.Kernel
import proofs.«134585_j83811991814293_1_alg».proof.Proof.Gen.KernelIdeal
import proofs.«134585_j83811991814293_1_alg».proof.Proof.Gen.ReferenceIdeal
import proofs.«134585_j83811991814293_1_alg».proof.Proof.Gen.Pre_finite_inputs
import proofs.«134585_j83811991814293_1_alg».proof.Proof.K.Run
import proofs.«134585_j83811991814293_1_alg».proof.Proof.KI.Values
import proofs.«134585_j83811991814293_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ =>
  (θ_run (Cert.Kernel.defs (F := Bits)) _ _).mono (fun _ h c => (h c).2) (Cert.Kernel.Hand.run_main (F := Bits) m ρ)

theorem frame_kernelIdeal : Cert.frame_KernelIdeal := fun m ρ _ =>
  (θ_run (Cert.KernelIdeal.defs (F := Ideal)) _ _).mono (fun _ h c => (h c).2) (Cert.KernelIdeal.Hand.run_main (F := Ideal) m ρ)

theorem frame_referenceIdeal : Cert.frame_ReferenceIdeal := fun m ρ _ =>
  (θ_run (Cert.ReferenceIdeal.defs (F := Ideal)) _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.W9 (F := Ideal) m c (Proc.devRef .tc Cert.KernelIdeal.main_v8),
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  have hk := Cert.KernelIdeal.Hand.result_eq m c
  have hr := Cert.ReferenceIdeal.RefValue.ref_eq m' c
  obtain ⟨h0, h1, h2, h3, h4, h5, h6, h7, h8⟩ := hagree c
  rw [h0, h1, h2, h3, h4, h5, h6, h7, h8] at hr
  exact hr.trans hk.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
